-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x512 : Shape := ⟨4, ![8, 64, 64, 512]⟩
abbrev S8x32x32x512 : Shape := ⟨4, ![8, 32, 32, 512]⟩
abbrev S512x256 : Shape := ⟨2, ![512, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S8x64x64x512 : S_.BroadcastsInDim S8x64x64x512 (![] : Fin 0 → Fin S8x64x64x512.rank)
  reducesTo_S8x64x64x512_S_d0_1_2_3 : S8x64x64x512.ReducesTo [0, 1, 2, 3] S_
  h_S_ : 0 < S_.numel
  bcast_S_S8x32x32x512 : S_.BroadcastsInDim S8x32x32x512 (![] : Fin 0 → Fin S8x32x32x512.rank)
  reducesTo_S8x32x32x512_S_d0_1_2_3 : S8x32x32x512.ReducesTo [0, 1, 2, 3] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_arg19 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  main_v98

def fn_part4 {F : FTy → Type} [FloatOps F] (main_arg14 : FVec F S256x512 .f32) (main_arg15 : FVec F S512 .f32) (main_arg16 : FVec F S512 .f32) (main_arg17 : FVec F S512 .f32) (main_arg18 : FVec F S512 .f32) (main_arg19 : FVec F S512 .f32) (main_v63 : IVec S_ 1) (main_v67 : IVec S_ 1) : IVec S_ 1 :=
  let main_v68 : IVec S_ 1 := andi main_v63 main_v67
  let main_v69 : FVec F S256x512 .f32 := Host.absf main_arg14
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S512 .f32) (main_arg12 : FVec F S512 .f32) (main_arg13 : FVec F S512 .f32) (main_arg14 : FVec F S256x512 .f32) (main_arg15 : FVec F S512 .f32) (main_arg16 : FVec F S512 .f32) (main_arg17 : FVec F S512 .f32) (main_arg18 : FVec F S512 .f32) (main_arg19 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_v63 main_v67

def fn_part2 {F : FTy → Type} [FloatOps F] (main_arg7 : FVec F S256 .f32) (main_arg8 : FVec F S256x512 .f32) (main_arg9 : FVec F S512 .f32) (main_arg10 : FVec F S512 .f32) (main_arg11 : FVec F S512 .f32) (main_arg12 : FVec F S512 .f32) (main_arg13 : FVec F S512 .f32) (main_arg14 : FVec F S256x512 .f32) (main_arg15 : FVec F S512 .f32) (main_arg16 : FVec F S512 .f32) (main_arg17 : FVec F S512 .f32) (main_arg18 : FVec F S512 .f32) (main_arg19 : FVec F S512 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S512x256 .f32) (main_arg5 : FVec F S256 .f32) (main_arg6 : FVec F S512x256 .f32) (main_arg7 : FVec F S256 .f32) (main_arg8 : FVec F S256x512 .f32) (main_arg9 : FVec F S512 .f32) (main_arg10 : FVec F S512 .f32) (main_arg11 : FVec F S512 .f32) (main_arg12 : FVec F S512 .f32) (main_arg13 : FVec F S512 .f32) (main_arg14 : FVec F S256x512 .f32) (main_arg15 : FVec F S512 .f32) (main_arg16 : FVec F S512 .f32) (main_arg17 : FVec F S512 .f32) (main_arg18 : FVec F S512 .f32) (main_arg19 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S8x64x64x512 .f32) (main_arg1 : FVec F S8x32x32x512 .f32) (main_arg2 : FVec F S512x256 .f32) (main_arg3 : FVec F S256 .f32) (main_arg4 : FVec F S512x256 .f32) (main_arg5 : FVec F S256 .f32) (main_arg6 : FVec F S512x256 .f32) (main_arg7 : FVec F S256 .f32) (main_arg8 : FVec F S256x512 .f32) (main_arg9 : FVec F S512 .f32) (main_arg10 : FVec F S512 .f32) (main_arg11 : FVec F S512 .f32) (main_arg12 : FVec F S512 .f32) (main_arg13 : FVec F S512 .f32) (main_arg14 : FVec F S256x512 .f32) (main_arg15 : FVec F S512 .f32) (main_arg16 : FVec F S512 .f32) (main_arg17 : FVec F S512 .f32) (main_arg18 : FVec F S512 .f32) (main_arg19 : FVec F S512 .f32) : IVec S_ 1 :=
  let main_v0 : FVec F S8x64x64x512 .f32 := Host.absf main_arg0
  let main_cst : FVec F S_ .f32 := constant S_ .f32 0x7F800000#32
  let main_v1 : FVec F S8x64x64x512 .f32 := broadcastInDim S8x64x64x512 ![] bcast_S_S8x64x64x512 main_cst
  let main_v2 : IVec S8x64x64x512 1 := cmpf .olt main_v0 main_v1
  let main_c : IVec S_ 1 := constantI S_ 1 1#1
  let main_v3 : IVec S_ 1 := (fun x v => Host.reduce IntOp.andi x v reducesTo_S8x64x64x512_S_d0_1_2_3 h_S_) main_v2 main_c
  let main_v4 : FVec F S8x32x32x512 .f32 := Host.absf main_arg1
  let main_cst_0 : FVec F S_ .f32 := constant S_ .f32 0x7F800000#32
  let main_v5 : FVec F S8x32x32x512 .f32 := broadcastInDim S8x32x32x512 ![] bcast_S_S8x32x32x512 main_cst_0
  let main_v6 : IVec S8x32x32x512 1 := cmpf .olt main_v4 main_v5
  let main_c_1 : IVec S_ 1 := constantI S_ 1 1#1
  let main_v7 : IVec S_ 1 := (fun x v => Host.reduce IntOp.andi x v reducesTo_S8x32x32x512_S_d0_1_2_3 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S8x64x64x512 : Shape := ⟨4, ![8, 64, 64, 512]⟩
abbrev S8x32x32x512 : Shape := ⟨4, ![8, 32, 32, 512]⟩
abbrev S512x256 : Shape := ⟨2, ![512, 256]⟩
abbrev S256 : Shape := ⟨1, ![256]⟩
abbrev S256x512 : Shape := ⟨2, ![256, 512]⟩
abbrev S512 : Shape := ⟨1, ![512]⟩
abbrev S8x4096x512 : Shape := ⟨3, ![8, 4096, 512]⟩
abbrev S8x1024x512 : Shape := ⟨3, ![8, 1024, 512]⟩
abbrev S1x256 : Shape := ⟨2, ![1, 256]⟩
abbrev S1x512 : Shape := ⟨2, ![1, 512]⟩
abbrev S8x1024x256 : Shape := ⟨3, ![8, 1024, 256]⟩
abbrev S8x256x256 : Shape := ⟨3, ![8, 256, 256]⟩
abbrev S1x1024x512 : Shape := ⟨3, ![1, 1024, 512]⟩
abbrev S1x1024x256 : Shape := ⟨3, ![1, 1024, 256]⟩
abbrev S1x256x256 : Shape := ⟨3, ![1, 256, 256]⟩
abbrev S1024x512 : Shape := ⟨2, ![1024, 512]⟩
abbrev S1024x256 : Shape := ⟨2, ![1024, 256]⟩
abbrev S256x1024 : Shape := ⟨2, ![256, 1024]⟩
abbrev S256x256 : Shape := ⟨2, ![256, 256]⟩

abbrev nBuf : Space → Nat
  | .hbm => 42
  | .vmem => 47
  | .smem => 0
  | _ => 0

abbrev bufTy : (tb : Table) → Fin (tcTables nBuf tb) → BufTy
  | .hbm, ⟨0, _⟩ => ⟨S8x64x64x512, .f32⟩
  | .hbm, ⟨1, _⟩ => ⟨S8x32x32x512, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S256x512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S8x4096x512, .f32⟩
  | .hbm, ⟨21, _⟩ => ⟨S8x1024x512, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S8x1024x256, .f32⟩
  | .hbm, ⟨36, _⟩ => ⟨S8x256x256, .f32⟩
  | .hbm, ⟨37, _⟩ => ⟨S8x256x256, .f32⟩
  | .hbm, ⟨38, _⟩ => ⟨S8x1024x512, .f32⟩
  | .hbm, ⟨39, _⟩ => ⟨S8x4096x512, .f32⟩
  | .hbm, ⟨40, _⟩ => ⟨S8x32x32x512, .f32⟩
  | .hbm, ⟨41, _⟩ => ⟨S8x64x64x512, .f32⟩
  | .local _ .vmem, ⟨0, _⟩ => ⟨S1x1024x512, .f32⟩
  | .local _ .vmem, ⟨1, _⟩ => ⟨S1x1024x512, .f32⟩
  | .local _ .vmem, ⟨2, _⟩ => ⟨S512x256, .f32⟩
  | .local _ .vmem, ⟨3, _⟩ => ⟨S1x256, .f32⟩
  | .local _ .vmem, ⟨4, _⟩ => ⟨S512x256, .f32⟩
  | .local _ .vmem, ⟨5, _⟩ => ⟨S1x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x256, .f32⟩
  | .local _ .vmem, ⟨9, _⟩ => ⟨S1x256x256, .f32⟩
  | .local _ .vmem, ⟨10, _⟩ => ⟨S1x1024x512, .f32⟩
  | .local _ .vmem, ⟨11, _⟩ => ⟨S1x1024x512, .f32⟩
  | .local _ .vmem, ⟨12, _⟩ => ⟨S512x256, .f32⟩
  | .local _ .vmem, ⟨13, _⟩ => ⟨S1x256, .f32⟩
  | .local _ .vmem, ⟨14, _⟩ => ⟨S512x256, .f32⟩
  | .local _ .vmem, ⟨15, _⟩ => ⟨S1x256, .f32⟩
  | .local _ .vmem, ⟨16, _⟩ => ⟨S1x256x256, .f32⟩
  | .local _ .vmem, ⟨17, _⟩ => ⟨S1x256x256, .f32⟩
  | .local _ .vmem, ⟨18, _⟩ => ⟨S256x256, .f32⟩
  | .local _ .vmem, ⟨19, _⟩ => ⟨S1x1024x256, .f32⟩
  | .local _ .vmem, ⟨20, _⟩ => ⟨S1x1024x256, .f32⟩
  | .local _ .vmem, ⟨21, _⟩ => ⟨S1x256x256, .f32⟩
  | .local _ .vmem, ⟨22, _⟩ => ⟨S1x256x256, .f32⟩
  | .local _ .vmem, ⟨23, _⟩ => ⟨S1x1024x512, .f32⟩
  | .local _ .vmem, ⟨24, _⟩ => ⟨S1x1024x512, .f32⟩
  | .local _ .vmem, ⟨25, _⟩ => ⟨S256x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x1024x512, .f32⟩
  | .local _ .vmem, ⟨32, _⟩ => ⟨S1x1024x512, .f32⟩
  | .local _ .vmem, ⟨33, _⟩ => ⟨S1x1024x512, .f32⟩
  | .local _ .vmem, ⟨34, _⟩ => ⟨S1x1024x512, .f32⟩
  | .local _ .vmem, ⟨35, _⟩ => ⟨S512x256, .f32⟩
  | .local _ .vmem, ⟨36, _⟩ => ⟨S1x256, .f32⟩
  | .local _ .vmem, ⟨37, _⟩ => ⟨S1x256x256, .f32⟩
  | .local _ .vmem, ⟨38, _⟩ => ⟨S1x256x256, .f32⟩
  | .local _ .vmem, ⟨39, _⟩ => ⟨S256x512, .f32⟩
  | .local _ .vmem, ⟨40, _⟩ => ⟨S1x512, .f32⟩
  | .local _ .vmem, ⟨41, _⟩ => ⟨S1x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S1x1024x512, .f32⟩
  | .local _ .vmem, ⟨46, _⟩ => ⟨S1x1024x512, .f32⟩
  | _, _ => ⟨S8x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg9_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg9_0 : Ref sig .tc := ⟨.vmem, 44, rfl⟩
abbrev cc3_stg10_0 : Ref sig .tc := ⟨.vmem, 45, rfl⟩
abbrev cc3_stg10_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem10_0 : DmaSem sig := 44
abbrev cc3_sem10_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_17 : BitVec 32 := 0#32
  let v31 : BitVec 1 := Scalar.cmpi .ne v30 c0_i32_17
  v31

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x1024x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨2, ![8, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S256x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 2 → Memref sig .tc .vmem S1x1024x512 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

class Facts₀ : Prop where
  shapeCasts_S8x64x64x512_S8x4096x512 : S8x64x64x512.ShapeCasts S8x4096x512
  shapeCasts_S8x32x32x512_S8x1024x512 : S8x32x32x512.ShapeCasts S8x1024x512
  shapeCasts_S256_S1x256 : S256.ShapeCasts S1x256
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  transposes_S1024x256_p1_0_S256x1024 : S1024x256.Transposes [1, 0] S256x1024
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  shapeCasts_S8x1024x512_S8x32x32x512 : S8x1024x512.ShapeCasts S8x32x32x512
  shapeCasts_S8x4096x512_S8x64x64x512 : S8x4096x512.ShapeCasts S8x64x64x512
  dot_S1024x512_S512x256_S1024x256_1_0_0_1_n_n_wf : DotDims.WF S1024x512 S512x256 S1024x256 [1] [0] [0] [1] [] []
  dot_S256x1024_S1024x256_S256x256_1_0_0_1_n_n_wf : DotDims.WF S256x1024 S1024x256 S256x256 [1] [0] [0] [1] [] []
  dot_S1024x256_S256x256_S1024x256_1_0_0_1_n_n_wf : DotDims.WF S1024x256 S256x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x256.size a ≤ S8x1024x256.size a
  hwx0_5 : ∀ i : grid0.Coords, EltTy.bits .f32 = 32 ∨ (Rect.block (s := S8x1024x256) S1x1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S8x256x256.size a
  hwx0_6 : ∀ i : grid0.Coords, EltTy.bits .f32 = 32 ∨ (Rect.block (s := S8x256x256) S1x256x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x4096x512.size a
  hwx1_0 : ∀ i : grid1.Coords, EltTy.bits .f32 = 32 ∨ (Rect.block (s := S8x4096x512) S1x1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x256.size a ≤ S8x256x256.size a
  hwx1_5 : ∀ i : grid1.Coords, EltTy.bits .f32 = 32 ∨ (Rect.block (s := S8x256x256) S1x256x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x256.size a ≤ S8x1024x256.size a
  hwx2_0 : ∀ i : grid2.Coords, EltTy.bits .f32 = 32 ∨ (Rect.block (s := S8x1024x256) S1x1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x256.size a ≤ S8x256x256.size a
  hwx2_1 : ∀ i : grid2.Coords, EltTy.bits .f32 = 32 ∨ (Rect.block (s := S8x256x256) S1x256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x512.size a ≤ S8x1024x512.size a
  hwx2_2 : ∀ i : grid2.Coords, EltTy.bits .f32 = 32 ∨ (Rect.block (s := S8x1024x512) S1x1024x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S256x512.size a
  hwx2_3 : ∀ i : grid2.Coords, EltTy.bits .f32 = 32 ∨ (Rect.block (s := S256x512) S256x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x512.size a
  hwx2_7 : ∀ i : grid2.Coords, EltTy.bits .f32 = 32 ∨ (Rect.block (s := S1x512) S1x512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x512.size a ≤ S1x512.size a
  hwx2_8 : ∀ i : grid2.Coords, EltTy.bits .f32 = 32 ∨ (Rect.block (s := S1x512) S1x512.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1024x512.size a ≤ S8x1024x512.size a
  hwx2_9 : ∀ i : grid2.Coords, EltTy.bits .f32 = 32 ∨ (Rect.block (s := S8x1024x512) S1x1024x512.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x512.size a ≤ S8x4096x512.size a
  hwx3_0 : ∀ i : grid3.Coords, EltTy.bits .f32 = 32 ∨ (Rect.block (s := S8x4096x512) S1x1024x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x256.size a ≤ S8x256x256.size a
  hwx3_3 : ∀ i : grid3.Coords, EltTy.bits .f32 = 32 ∨ (Rect.block (s := S8x256x256) S1x256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x512.size a ≤ S256x512.size a
  hwx3_4 : ∀ i : grid3.Coords, EltTy.bits .f32 = 32 ∨ (Rect.block (s := S256x512) S256x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x512.size a ≤ S1x512.size a
  hwx3_5 : ∀ i : grid3.Coords, EltTy.bits .f32 = 32 ∨ (Rect.block (s := S1x512) S1x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x512.size a
  hwx3_6 : ∀ i : grid3.Coords, EltTy.bits .f32 = 32 ∨ (Rect.block (s := S1x512) S1x512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x512.size a ≤ S1x512.size a
  hwx3_7 : ∀ i : grid3.Coords, EltTy.bits .f32 = 32 ∨ (Rect.block (s := S1x512) S1x512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x512.size a ≤ S1x512.size a
  hwx3_8 : ∀ i : grid3.Coords, EltTy.bits .f32 = 32 ∨ (Rect.block (s := S1x512) S1x512.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x512.size a ≤ S1x512.size a
  hwx3_9 : ∀ i : grid3.Coords, EltTy.bits .f32 = 32 ∨ (Rect.block (s := S1x512) S1x512.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1x1024x512.size a ≤ S8x4096x512.size a
  hwx3_10 : ∀ i : grid3.Coords, EltTy.bits .f32 = 32 ∨ (Rect.block (s := S8x4096x512) S1x1024x512.size (cc3_transform_10 i) (hinb3_10 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S1x1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S1x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v15_0) S1x1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x256x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S1x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v9) S1x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v17) S1x1024x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v0) S1x1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15_1) S1x256x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S256x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v10) S1x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v11) S1x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v12) S1x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v13) S1x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v14) S1x512.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v18) S1x1024x512.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S8x64x64x512 : Shape := ⟨4, ![8, 64, 64, 512]⟩
abbrev S8x32x32x512 : Shape := ⟨4, ![8, 32, 32, 512]⟩
abbrev S512x256 : Shape := ⟨2, ![512, 256]⟩
abbrev S256 : Shape := ⟨1, ![256]⟩
abbrev S256x512 : Shape := ⟨2, ![256, 512]⟩
abbrev S512 : Shape := ⟨1, ![512]⟩
abbrev S8x64x64x256 : Shape := ⟨4, ![8, 64, 64, 256]⟩
abbrev S1x1x1x256 : Shape := ⟨4, ![1, 1, 1, 256]⟩
abbrev S8x4096x256 : Shape := ⟨3, ![8, 4096, 256]⟩
abbrev S8x32x32x256 : Shape := ⟨4, ![8, 32, 32, 256]⟩
abbrev S8x1024x256 : Shape := ⟨3, ![8, 1024, 256]⟩
abbrev S8x1024x4096 : Shape := ⟨3, ![8, 1024, 4096]⟩
abbrev S_ : Shape := ⟨0, ![]⟩
abbrev S8x4096x1024 : Shape := ⟨3, ![8, 4096, 1024]⟩
abbrev S1x1x1x512 : Shape := ⟨4, ![1, 1, 1, 512]⟩

abbrev nBuf : Space → Nat
  | .hbm => 94
  | .vmem => 0
  | .smem => 0
  | _ => 0

abbrev bufTy : (tb : Table) → Fin (tcTables nBuf tb) → BufTy
  | .hbm, ⟨0, _⟩ => ⟨S8x64x64x512, .f32⟩
  | .hbm, ⟨1, _⟩ => ⟨S8x32x32x512, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S256x512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S8x64x64x256, .f32⟩
  | .hbm, ⟨21, _⟩ => ⟨S1x1x1x256, .f32⟩
  | .hbm, ⟨22, _⟩ => ⟨S8x64x64x256, .f32⟩
  | .hbm, ⟨23, _⟩ => ⟨S8x64x64x256, .f32⟩
  | .hbm, ⟨24, _⟩ => ⟨S8x4096x256, .f32⟩
  | .hbm, ⟨25, _⟩ => ⟨S8x32x32x256, .f32⟩
  | .hbm, ⟨26, _⟩ => ⟨S1x1x1x256, .f32⟩
  | .hbm, ⟨27, _⟩ => ⟨S8x32x32x256, .f32⟩
  | .hbm, ⟨28, _⟩ => ⟨S8x32x32x256, .f32⟩
  | .hbm, ⟨29, _⟩ => ⟨S8x1024x256, .f32⟩
  | .hbm, ⟨30, _⟩ => ⟨S8x32x32x256, .f32⟩
  | .hbm, ⟨31, _⟩ => ⟨S1x1x1x256, .f32⟩
  | .hbm, ⟨32, _⟩ => ⟨S8x32x32x256, .f32⟩
  | .hbm, ⟨33, _⟩ => ⟨S8x32x32x256, .f32⟩
  | .hbm, ⟨34, _⟩ => ⟨S8x1024x256, .f32⟩
  | .hbm, ⟨35, _⟩ => ⟨S8x64x64x256, .f32⟩
  | .hbm, ⟨36, _⟩ => ⟨S1x1x1x256, .f32⟩
  | .hbm, ⟨37, _⟩ => ⟨S8x64x64x256, .f32⟩
  | .hbm, ⟨38, _⟩ => ⟨S8x64x64x256, .f32⟩
  | .hbm, ⟨39, _⟩ => ⟨S8x4096x256, .f32⟩
  | .hbm, ⟨40, _⟩ => ⟨S8x1024x4096, .f32⟩
  | .hbm, ⟨41, _⟩ => ⟨S_, .f32⟩
  | .hbm, ⟨42, _⟩ => ⟨S8x1024x4096, .f32⟩
  | .hbm, ⟨43, _⟩ => ⟨S8x1024x4096, .f32⟩
  | .hbm, ⟨44, _⟩ => ⟨S8x4096x1024, .f32⟩
  | .hbm, ⟨45, _⟩ => ⟨S_, .f32⟩
  | .hbm, ⟨46, _⟩ => ⟨S8x4096x1024, .f32⟩
  | .hbm, ⟨47, _⟩ => ⟨S8x4096x1024, .f32⟩
  | .hbm, ⟨48, _⟩ => ⟨S8x1024x256, .f32⟩
  | .hbm, ⟨49, _⟩ => ⟨S8x32x32x256, .f32⟩
  | .hbm, ⟨50, _⟩ => ⟨S8x32x32x512, .f32⟩
  | .hbm, ⟨51, _⟩ => ⟨S1x1x1x512, .f32⟩
  | .hbm, ⟨52, _⟩ => ⟨S8x32x32x512, .f32⟩
  | .hbm, ⟨53, _⟩ => ⟨S8x32x32x512, .f32⟩
  | .hbm, ⟨54, _⟩ => ⟨S1x1x1x512, .f32⟩
  | .hbm, ⟨55, _⟩ => ⟨S8x32x32x512, .f32⟩
  | .hbm, ⟨56, _⟩ => ⟨S8x32x32x512, .f32⟩
  | .hbm, ⟨57, _⟩ => ⟨S1x1x1x512, .f32⟩
  | .hbm, ⟨58, _⟩ => ⟨S8x32x32x512, .f32⟩
  | .hbm, ⟨59, _⟩ => ⟨S8x32x32x512, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S1x1x1x512, .f32⟩
  | .hbm, ⟨65, _⟩ => ⟨S8x32x32x512, .f32⟩
  | .hbm, ⟨66, _⟩ => ⟨S8x32x32x512, .f32⟩
  | .hbm, ⟨67, _⟩ => ⟨S1x1x1x512, .f32⟩
  | .hbm, ⟨68, _⟩ => ⟨S8x32x32x512, .f32⟩
  | .hbm, ⟨69, _⟩ => ⟨S8x32x32x512, .f32⟩
  | .hbm, ⟨70, _⟩ => ⟨S8x32x32x512, .f32⟩
  | .hbm, ⟨71, _⟩ => ⟨S8x4096x256, .f32⟩
  | .hbm, ⟨72, _⟩ => ⟨S8x64x64x256, .f32⟩
  | .hbm, ⟨73, _⟩ => ⟨S8x64x64x512, .f32⟩
  | .hbm, ⟨74, _⟩ => ⟨S1x1x1x512, .f32⟩
  | .hbm, ⟨75, _⟩ => ⟨S8x64x64x512, .f32⟩
  | .hbm, ⟨76, _⟩ => ⟨S8x64x64x512, .f32⟩
  | .hbm, ⟨77, _⟩ => ⟨S1x1x1x512, .f32⟩
  | .hbm, ⟨78, _⟩ => ⟨S8x64x64x512, .f32⟩
  | .hbm, ⟨79, _⟩ => ⟨S8x64x64x512, .f32⟩
  | .hbm, ⟨80, _⟩ => ⟨S1x1x1x512, .f32⟩
  | .hbm, ⟨81, _⟩ => ⟨S8x64x64x512, .f32⟩
  | .hbm, ⟨82, _⟩ => ⟨S8x64x64x512, .f32⟩
  | .hbm, ⟨83, _⟩ => ⟨S_, .f32⟩
  | .hbm, ⟨84, _⟩ => ⟨S512, .f32⟩
  | .hbm, ⟨85, _⟩ => ⟨S512, .f32⟩
  | .hbm, ⟨86, _⟩ => ⟨S512, .f32⟩
  | .hbm, ⟨87, _⟩ => ⟨S1x1x1x512, .f32⟩
  | .hbm, ⟨88, _⟩ => ⟨S8x64x64x512, .f32⟩
  | .hbm, ⟨89, _⟩ => ⟨S8x64x64x512, .f32⟩
  | .hbm, ⟨90, _⟩ => ⟨S1x1x1x512, .f32⟩
  | .hbm, ⟨91, _⟩ => ⟨S8x64x64x512, .f32⟩
  | .hbm, ⟨92, _⟩ => ⟨S8x64x64x512, .f32⟩
  | .hbm, ⟨93, _⟩ => ⟨S8x64x64x512, .f32⟩
  | _, _ => ⟨S8x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_1 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_2 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S8x64x64x256_0_1_2_3 : S1x1x1x256.BroadcastsInDim S8x64x64x256 (![0, 1, 2, 3] : Fin 4 → Fin S8x64x64x256.rank)
  shapeCasts_S8x64x64x256_S8x4096x256 : S8x64x64x256.ShapeCasts S8x4096x256
  bcast_S1x1x1x256_S8x32x32x256_0_1_2_3 : S1x1x1x256.BroadcastsInDim S8x32x32x256 (![0, 1, 2, 3] : Fin 4 → Fin S8x32x32x256.rank)
  shapeCasts_S8x32x32x256_S8x1024x256 : S8x32x32x256.ShapeCasts S8x1024x256
  bcast_S_S8x1024x4096 : S_.BroadcastsInDim S8x1024x4096 (![] : Fin 0 → Fin S8x1024x4096.rank)
  transposes_S8x1024x4096_S8x4096x1024_0_2_1 : S8x1024x4096.Transposes [0, 2, 1] S8x4096x1024
  bcast_S_S8x4096x1024 : S_.BroadcastsInDim S8x4096x1024 (![] : Fin 0 → Fin S8x4096x1024.rank)
  shapeCasts_S8x1024x256_S8x32x32x256 : S8x1024x256.ShapeCasts S8x32x32x256
  bcast_S512_S1x1x1x512_3 : S512.BroadcastsInDim S1x1x1x512 (![3] : Fin 1 → Fin S1x1x1x512.rank)
  bcast_S1x1x1x512_S8x32x32x512_0_1_2_3 : S1x1x1x512.BroadcastsInDim S8x32x32x512 (![0, 1, 2, 3] : Fin 4 → Fin S8x32x32x512.rank)
  bcast_S_S512 : S_.BroadcastsInDim S512 (![] : Fin 0 → Fin S512.rank)
  shapeCasts_S8x4096x256_S8x64x64x256 : S8x4096x256.ShapeCasts S8x64x64x256
  bcast_S1x1x1x512_S8x64x64x512_0_1_2_3 : S1x1x1x512.BroadcastsInDim S8x64x64x512 (![0, 1, 2, 3] : Fin 4 → Fin S8x64x64x512.rank)
  dot_S8x64x64x512_S512x256_S8x64x64x256_3_0_012_1_n_n_wf : DotDims.WF S8x64x64x512 S512x256 S8x64x64x256 [3] [0] [0, 1, 2] [1] [] []
  dot_S8x32x32x512_S512x256_S8x32x32x256_3_0_012_1_n_n_wf : DotDims.WF S8x32x32x512 S512x256 S8x32x32x256 [3] [0] [0, 1, 2] [1] [] []
  dot_S8x1024x256_S8x4096x256_S8x1024x4096_2_2_1_1_0_0_wf : DotDims.WF S8x1024x256 S8x4096x256 S8x1024x4096 [2] [2] [1] [1] [0] [0]
  dot_S8x1024x4096_S8x4096x256_S8x1024x256_2_1_1_2_0_0_wf : DotDims.WF S8x1024x4096 S8x4096x256 S8x1024x256 [2] [1] [1] [2] [0] [0]
  dot_S8x32x32x256_S256x512_S8x32x32x512_3_0_012_1_n_n_wf : DotDims.WF S8x32x32x256 S256x512 S8x32x32x512 [3] [0] [0, 1, 2] [1] [] []
  dot_S8x4096x1024_S8x1024x256_S8x4096x256_2_1_1_2_0_0_wf : DotDims.WF S8x4096x1024 S8x1024x256 S8x4096x256 [2] [1] [1] [2] [0] [0]
  dot_S8x64x64x256_S256x512_S8x64x64x512_3_0_012_1_n_n_wf : DotDims.WF S8x64x64x256 S256x512 S8x64x64x512 [3] [0] [0, 1, 2] [1] [] []

variable [Facts₀]

def dot_S8x64x64x512_S512x256_S8x64x64x256_3_0_012_1_n_n : DotDims S8x64x64x512 S512x256 S8x64x64x256 where
  lhsContracting := [3]
  rhsContracting := [0]
  lhsNonContracting := [0, 1, 2]
  rhsNonContracting := [1]
  lhsBatch := []
  rhsBatch := []
  wf := dot_S8x64x64x512_S512x256_S8x64x64x256_3_0_012_1_n_n_wf
def dot_S8x32x32x512_S512x256_S8x32x32x256_3_0_012_1_n_n : DotDims S8x32x32x512 S512x256 S8x32x32x256 where
  lhsContracting := [3]
  rhsContracting := [0]
  lhsNonContracting := [0, 1, 2]
  rhsNonContracting := [1]
  lhsBatch := []
  rhsBatch := []
  wf := dot_S8x32x32x512_S512x256_S8x32x32x256_3_0_012_1_n_n_wf
def dot_S8x1024x256_S8x4096x256_S8x1024x4096_2_2_1_1_0_0 : DotDims S8x1024x256 S8x4096x256 S8x1024x4096 where
  lhsContracting := [2]
  rhsContracting := [2]
  lhsNonContracting := [1]
  rhsNonContracting := [1]
  lhsBatch := [0]
  rhsBatch := [0]
  wf := dot_S8x1024x256_S8x4096x256_S8x1024x4096_2_2_1_1_0_0_wf
def dot_S8x1024x4096_S8x4096x256_S8x1024x256_2_1_1_2_0_0 : DotDims S8x1024x4096 S8x4096x256 S8x1024x256 where
  lhsContracting := [2]
  rhsContracting := [1]
  lhsNonContracting := [1]
  rhsNonContracting := [2]
  lhsBatch := [0]
  rhsBatch := [0]
  wf := dot_S8x1024x4096_S8x4096x256_S8x1024x256_2_1_1_2_0_0_wf
def dot_S8x32x32x256_S256x512_S8x32x32x512_3_0_012_1_n_n : DotDims S8x32x32x256 S256x512 S8x32x32x512 where
  lhsContracting := [3]
  rhsContracting := [0]
  lhsNonContracting := [0, 1, 2]
  rhsNonContracting := [1]
  lhsBatch := []
  rhsBatch := []
  wf := dot_S8x32x32x256_S256x512_S8x32x32x512_3_0_012_1_n_n_wf
def dot_S8x4096x1024_S8x1024x256_S8x4096x256_2_1_1_2_0_0 : DotDims S8x4096x1024 S8x1024x256 S8x4096x256 where
  lhsContracting := [2]
  rhsContracting := [1]
  lhsNonContracting := [1]
  rhsNonContracting := [2]
  lhsBatch := [0]
  rhsBatch := [0]
  wf := dot_S8x4096x1024_S8x1024x256_S8x4096x256_2_1_1_2_0_0_wf
def dot_S8x64x64x256_S256x512_S8x64x64x512_3_0_012_1_n_n : DotDims S8x64x64x256 S256x512 S8x64x64x512 where
  lhsContracting := [3]
  rhsContracting := [0]
  lhsNonContracting := [0, 1, 2]
  rhsNonContracting := [1]
  lhsBatch := []
  rhsBatch := []
  wf := dot_S8x64x64x256_S256x512_S8x64x64x512_3_0_012_1_n_n_wf

class Facts : Prop extends Facts₀ where

variable [Facts]
-- ==== Proof.K.R0Body.lean ====
import proofs.«154970_j43301860278975_1_alg».proof.Proof.Gen.Kernel.Launch
import proofs.«154970_j43301860278975_1_alg».proof.Proof.Gen.Kernel.Skeleton
import proofs.«154970_j43301860278975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- A box of the shape's own sizes that fits in the shape sits at offset zero,
theorem r0_off {S : Shape} {off : Fin S.rank → Nat} (inb : ∀ a, off a + S.size a ≤ S.size a) : off = fun _ => 0 :=
  funext fun a => by have := inb a; omega

-- so a load through it reads the contents,
theorem r0_load {κ : Kind} {sp : Space} {S : Shape} {e : EltTy} (v : View sig κ sp S e) (off inb) (f : v.ty.Contents (Elt F)) :
    v.readAt (Elt F) (Rect.unit off S.size inb).toLoadRect f = v.read (Elt F) f :=
  View.ld_unit_zero (r0_off inb) inb _

-- and one store through it leaves its payload.
theorem r0_store {κ : Kind} {sp : Space} {S : Shape} {e : EltTy} (v : View sig κ sp S e) (off inb) (f : v.ty.Contents (Elt F))
    (w : S.Idx → Elt F e) : v.read (Elt F) (v.writes (Elt F) f [(⟨Rect.unit off S.size inb, w⟩ : View.Piece (Elt F) S e)]) = w := by
  rw [View.read_writes_eq_canon _ _ _ (fun y => ⟨_, List.mem_singleton_self _, View.mem_set_unit_zero (r0_off inb) inb y⟩),
    View.canon_unit_zero (r0_off inb)]

set_option maxHeartbeats 4000000 in
theorem sound_kernel0 (c : Dev nD) (E : Set ℕ) (i : grid0.Coords)
    (arg1 : Memref sig .tc .vmem S1x1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S1x1024x256 .f32) (harg6 : arg6.IsWhole)
    (arg7 : Memref sig .tc .vmem S1x256x256 .f32) (harg7 : arg7.IsWhole)
    (x0 : Vec F S1x1024x512 .f32) (x1 : Vec F S512x256 .f32) (x2 : Vec F S1x256 .f32) (x3 : Vec F S512x256 .f32) (x4 : Vec F S1x256 .f32)
    (d5 : Vec F S1x1024x256 .f32) (d6 : Vec F S1x256x256 .f32)
    (K : PUnit → sProp 𝕄) :
    iprop(owns c arg1 fullShare x0 ∗ owns c arg2 fullShare x1 ∗ owns c arg3 fullShare x2
        ∗ owns c arg4 fullShare x3 ∗ owns c arg5 fullShare x4
        ∗ owns c arg6 fullShare d5 ∗ owns c arg7 fullShare d6
        ∗ (iprop(owns c arg1 fullShare x0 ∗ owns c arg2 fullShare x1 ∗ owns c arg3 fullShare x2
            ∗ owns c arg4 fullShare x3 ∗ owns c arg5 fullShare x4
            ∗ owns c arg6 fullShare (k0_pay3 x0 x3 x4) ∗ owns c arg7 fullShare (k0_pay4 x0 x1 x3 x2 x4)) -∗ K ⟨⟩))
      ⊢ wp frame (wpE (defs₀ (F := F)) Variants.none c none) E (cc0__k1_kernel i arg1 harg1 arg2 harg2 arg3 harg3 arg4 harg4 arg5 harg5 arg6 harg6 arg7 harg7) K := by
  simp only [cc0__k1_kernel_eq_skeleton]; unfold cc0__k1_kernel_skel owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; rw [r0_store]; repeat rw [r0_load]
  iexists _; isplitr
  swap; · iexact H6
  ipureintro; rw [r0_store]; repeat rw [r0_load]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (iblk0 V c 0 t) (iblk0 V c 3 t) (iblk0 V c 4 t)
    | ⟨6, _⟩ => k0_pay4 (iblk0 V c 0 t) (iblk0 V c 1 t) (iblk0 V c 3 t) (iblk0 V c 2 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = k0_pay3 (iblk0 V c 0 t) (iblk0 V c 3 t) (iblk0 V c 4 t) := by dsimp only [dat0]
theorem after0_6 (c : Dev nD) (t : Fin cfg0.N) :
    (dat0 V c).after 6 t = k0_pay4 (iblk0 V c 0 t) (iblk0 V c 1 t) (iblk0 V c 3 t) (iblk0 V c 2 t) (iblk0 V c 4 t) := by dsimp only [dat0]

-- At every point each input window holds its block of the entry array, before the body and after it.
theorem pt0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t)
      ∧ (∀ d, (dat0 V c).before 4 t d = iblk0 V c 4 t)
      ∧ (dat0 V c).after 0 t = iblk0 V c 0 t ∧ (dat0 V c).after 1 t = iblk0 V c 1 t ∧ (dat0 V c).after 2 t = iblk0 V c 2 t
      ∧ (dat0 V c).after 3 t = iblk0 V c 3 t ∧ (dat0 V c).after 4 t = iblk0 V c 4 t
      ∧ (dat0 V c).Φ t.succ = (dat0 V c).Φ t.castSucc ∧ (dat0 V c).owesAt () t.succ = (dat0 V c).owesAt () t.castSucc := by
  refine ⟨?_, ?_, ?_, ?_, ?_, rfl, rfl, rfl, rfl, rfl, rfl, rfl⟩ <;> exact fun d =>
    ((dat0 V c).before_in_eq_fetched _ rfl (fun _ => rfl) (fun _ _ _ => rfl) (fun _ => rfl) t d).trans rfl

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

theorem body_obligation0 (c : Dev nD) : BodyObligation (dat0 (F := F) V c) (defs₀ (F := F)) Variants.none () Set.univ := fun t => by
  rw [bigSep_W0, bigSep_W0]
  simp only [pt0 V c t, after0_5, after0_6]
  change _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel0
  iframe H0 H1 H2 H3 H4 H5 H6
  iintro ⟨H0, H1, H2, H3, H4, H5, H6⟩
  iframe

end Cert.Kernel.Reg

end
-- ==== Proof.K.R1Body.lean ====
import proofs.«154970_j43301860278975_1_alg».proof.Proof.Gen.Kernel.Launch
import proofs.«154970_j43301860278975_1_alg».proof.Proof.Gen.Kernel.Skeleton
import proofs.«154970_j43301860278975_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_cond0 (i : grid1.Coords) : Prop := (Scalar.cmpi .ne (Scalar.extui (Scalar.cmpi .eq (BitVec.ofNat 32 (i 1).val) 0#32)) 0#32) = 1#1
theorem r1_hcond0 : ∀ t : Fin cfg1.N, r1_cond0 (grid1.coords t) ↔ t.val % 4 = 0 :=
  (by decide +kernel : ∀ t : Fin grid1.N, r1_cond0 (grid1.coords t) ↔ t.val % 4 = 0)
abbrev r1_cond1 (i : grid1.Coords) : Prop := k1_cond2 i = 1#1
theorem r1_hcond1 : ∀ t : Fin cfg1.N, r1_cond1 (grid1.coords t) ↔ t.val % 4 = 3 :=
  (by decide +kernel : ∀ t : Fin grid1.N, r1_cond1 (grid1.coords t) ↔ t.val % 4 = 3)

theorem r1_idleAt5 (i : grid1.Coords) (h : ¬r1_cond1 i) : cfg1.idle 5 i = true := by
  show (!(k1_cond2 i == 1#1)) = true
  simp only [Bool.not_eq_true', beq_eq_false_iff_ne, ne_eq]; exact h
theorem r1_liveAt5 (i : grid1.Coords) (h : r1_cond1 i) : cfg1.idle 5 i = false := by
  show (!(k1_cond2 i == 1#1)) = false
  simp only [Bool.not_eq_false', beq_iff_eq]; exact h

theorem r1_hz2 : (![0, 0] : Fin 2 → Nat) = fun _ => 0 := funext fun a => by fin_cases a <;> rfl
theorem r1_hz3 : (![0, 0, 0] : Fin 3 → Nat) = fun _ => 0 := funext fun a => by fin_cases a <;> rfl

theorem r1_read_writes_last_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

set_option maxHeartbeats 4000000 in
/-- One grid point: the sum restarts from zero at a batch's first tile, and its scaled value is stored at the last. -/
theorem r1_run (c : Dev nD) (t : Fin cfg1.N)
    (arg2 : Memref sig .tc .vmem S1x1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S512x256 .f32) (harg5 : arg5.IsWhole)
    (arg6 : Memref sig .tc .vmem S1x256 .f32) (harg6 : arg6.IsWhole) (arg7 : Memref sig .tc .vmem S1x256x256 .f32) (harg7 : arg7.IsWhole)
    (arg8 : Memref sig .tc .vmem S256x256 .f32) (harg8 : arg8.IsWhole)
    (x0 : Vec F S1x1024x512 .f32) (x1 : Vec F S512x256 .f32) (x2 : Vec F S1x256 .f32) (x3 : Vec F S512x256 .f32) (x4 : Vec F S1x256 .f32)
    (x5 : Vec F S1x256x256 .f32) (xs acc : Vec F S256x256 .f32)
    (hacc : acc = k1_pay2 x0 x1 x3 x2 x4 (if t.val % 4 = 0 then k1_pay1 else xs)) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if t.val % 4 = 3 then k1_pay3 acc else x5) ∗ owns (c : Thread nD τ) arg8 fullShare acc) -∗ K ⟨⟩))
      ⊢ wp frame (wpE (defs₀ (F := F)) Variants.none c none) E (cc1__k2_kernel (grid1.coords t) arg2 harg2 arg3 harg3 arg4 harg4 arg5 harg5 arg6 harg6 arg7 harg7 arg8 harg8) K := by
  subst hacc
  by_cases h0 : t.val % 4 = 0 <;> by_cases h1 : t.val % 4 = 3
  · omega
  all_goals
    have hc0 := h0; rw [← r1_hcond0 t] at hc0
    have hc1 := h1; rw [← r1_hcond1 t] at hc1
    first | rw [if_pos h0] | rw [if_neg h0]
    first | rw [if_pos h1] | rw [if_neg h1]
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      first
      | exact hf5
      | sl_unfold_words
        rw [r1_read_writes_last_whole _ _ r1_hz3]
        simp only [View.readCov_unit_zero (S := S256x256) _ r1_hz2, View.readAt_eq_ld, harg2.read_unread, harg3.read_unread, harg4.read_unread, harg5.read_unread, harg6.read_unread, harg8.read_unread,
        View.ld_unit_zero (S := S1x1024x512) r1_hz3, View.ld_unit_zero (S := S512x256) r1_hz2, View.ld_unit_zero (S := S1x256) r1_hz2, View.ld_unit_zero (S := S256x256) r1_hz2]
    iexists _; isplitr
    swap; · iexact HS
    ipureintro
    sl_unfold_words
    rw [r1_read_writes_last_whole _ _ r1_hz2]
    simp only [View.readCov_unit_zero (S := S256x256) _ r1_hz2, View.readAt_eq_ld, harg2.read_unread, harg3.read_unread, harg4.read_unread, harg5.read_unread, harg6.read_unread, harg8.read_unread,
      View.ld_unit_zero (S := S1x1024x512) r1_hz3, View.ld_unit_zero (S := S512x256) r1_hz2, View.ld_unit_zero (S := S1x256) r1_hz2, View.ld_unit_zero (S := S256x256) r1_hz2]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S256x256 .f32
  | 0, h => k1_pay2 (iblk1 V c 0 ⟨0, h⟩) (iblk1 V c 1 ⟨0, h⟩) (iblk1 V c 3 ⟨0, h⟩) (iblk1 V c 2 ⟨0, h⟩) (iblk1 V c 4 ⟨0, h⟩) k1_pay1
  | n + 1, h => k1_pay2 (iblk1 V c 0 ⟨n + 1, h⟩) (iblk1 V c 1 ⟨n + 1, h⟩) (iblk1 V c 3 ⟨n + 1, h⟩) (iblk1 V c 2 ⟨n + 1, h⟩) (iblk1 V c 4 ⟨n + 1, h⟩)
      (if (n + 1) % 4 = 0 then k1_pay1 else accAt1 c n (Nat.lt_of_succ_lt h))

/-- The sum after a point is the point's product added to zero at a batch's first tile, else to the sum before. -/
theorem r1_accAt (c : Dev nD) (t : Fin cfg1.N) (d : Vec F S256x256 .f32)
    (hd : ∀ h : t.val ≠ 0, d = accAt1 V c (t.val - 1) (Nat.lt_of_le_of_lt (Nat.sub_le _ _) t.isLt)) :
    accAt1 V c t.val t.isLt = k1_pay2 (iblk1 V c 0 t) (iblk1 V c 1 t) (iblk1 V c 3 t) (iblk1 V c 2 t) (iblk1 V c 4 t) (if t.val % 4 = 0 then k1_pay1 else d) := by
  obtain ⟨n, hn⟩ := t
  cases n with
  | zero => rfl
  | succ n => cases hd (Nat.succ_ne_zero n); rfl

abbrev r1_scM : Memref sig .tc .vmem S256x256 .f32 := Memref.whole cc1_scratch0

theorem r1_PhiA_eq (c : Dev nD) :
    (Pipeline.ΦA spec1 c : sProp 𝕄)
      = iprop(iprop(iprop(∃ d, owns (c : Thread nD τ) r1_scM fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [r1_scM, owns_whole]; try rfl

/-- Before point n the scratch holds the sum after point n - 1 (anything before the first point). -/
def r1_PhiS (c : Dev nD) (n : ℕ) (hn : n ≤ cfg1.N) : sProp 𝕄 :=
  iprop(iprop((∃ d, ⌜∀ h : n ≠ 0, d = accAt1 V c (n - 1) (by omega)⌝ ∗ owns (c : Thread nD τ) r1_scM fullShare d)
      ∗ Pipeline.scopedRestBut (Ix := Unit) (Name := ℕ) (U := UR sig nD τ) (Lvl := ℕ) (Val := Elt F) spec1 c [cc1_scratch0]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (accAt1 V c t.val t.isLt)
  Φ t := r1_PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) (h : t.val % 4 = 3) :
    (dat1 V c).after 5 t = k1_pay3 (accAt1 V c t.val t.isLt) := rfl

/-- Every input window holds its own block at every point. -/
theorem r1_before (c : Dev nD) (t : Fin cfg1.N) :
    (∀ d, (dat1 V c).before 0 t d = iblk1 V c 0 t)
      ∧ (∀ d, (dat1 V c).before 1 t d = iblk1 V c 1 t)
      ∧ (∀ d, (dat1 V c).before 2 t d = iblk1 V c 2 t)
      ∧ (∀ d, (dat1 V c).before 3 t d = iblk1 V c 3 t)
      ∧ (∀ d, (dat1 V c).before 4 t d = iblk1 V c 4 t) := by
  refine ⟨?_, ?_, ?_, ?_, ?_⟩ <;>
    exact fun d => ((dat1 V c).before_in_eq_fetched _ rfl (fun _ => rfl) (fun _ _ _ => rfl) (fun _ => rfl) t d).trans rfl

theorem r1_noFlush5 (t : Fin cfg1.N) (h : ¬t.val % 4 = 3) : (cfg1.win 5).flush t = false :=
  Bool.eq_false_iff.mpr fun hf => h ((flush1_5 t).mp hf)

/-- The output block is left at the scaled sum at a batch's last tile, and as found at the other tiles. -/
theorem r1_leaves5 (c : Dev nD) (t : Fin cfg1.N) (d) :
    owns (c : Thread nD τ) (st1_5 t) fullShare (if t.val % 4 = 3 then k1_pay3 (accAt1 V c t.val t.isLt) else (dat1 V c).before 5 t d)
      ⊢ (dat1 V c).leavesExact 5 t := by
  by_cases h : t.val % 4 = 3
  · rw [if_pos h]; unfold Dat.leavesExact; rw [r1_liveAt5 _ ((r1_hcond1 t).mpr h)]; exact .rfl
  · rw [if_neg h, Dat.leavesExact_idle _ 5 t (r1_idleAt5 _ (mt (r1_hcond1 t).mp h)) (r1_noFlush5 t h)]
    iintro H; iexists d; iexact H

theorem r1_sound_body (c : Dev nD) (t : Fin cfg1.N) :
    iprop(r1_PhiS V c t.val (Nat.le_of_lt t.isLt) ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
      ⊢ wp frame (wpE (defs₀ (F := F)) Variants.none c none) Set.univ (bodyAt1 t) (fun _ =>
        iprop(r1_PhiS V c (t.val + 1) t.isLt ∗ (dat1 V c).owesAt () t.castSucc
          ∗ owns (c : Thread nD τ) (st1_0 t) fullShare (iblk1 V c 0 t)
          ∗ owns (c : Thread nD τ) (st1_1 t) fullShare (iblk1 V c 1 t)
          ∗ owns (c : Thread nD τ) (st1_2 t) fullShare (iblk1 V c 2 t)
          ∗ owns (c : Thread nD τ) (st1_3 t) fullShare (iblk1 V c 3 t)
          ∗ owns (c : Thread nD τ) (st1_4 t) fullShare (iblk1 V c 4 t)
          ∗ (dat1 V c).leavesExact 5 t)) := by
  unfold r1_PhiS bodyAt1
  simp only [r1_before V c t]
  iintro ⟨⟨⟨⟨%d, %hd, HS⟩, HR⟩, Hg⟩, Ho, ⟨%d0, H0⟩, ⟨%d1, H1⟩, ⟨%d2, H2⟩, ⟨%d3, H3⟩, ⟨%d4, H4⟩, ⟨%d5, H5⟩⟩
  iapply (r1_run c t (st1_0 t) _ (st1_1 t) _ (st1_2 t) _ (st1_3 t) _ (st1_4 t) _ (st1_5 t) _ r1_scM (Memref.isWhole_whole _)
    _ _ _ _ _ _ d _ (r1_accAt V c t d hd) Set.univ _)
  iframe H0 H1 H2 H3 H4 H5 HS
  iintro ⟨H0, H1, H2, H3, H4, H5, HS⟩
  iframe HR Hg Ho H0 H1 H2 H3 H4
  isplitl [HS]
  · iexists _; isplitr
    swap; · iexact HS
    ipureintro; exact fun _ => rfl
  iapply (r1_leaves5 V c t d5); iexact H5

theorem body_obligation1 (c : Dev nD) : BodyObligation (dat1 (F := F) V c) (defs₀ (F := F)) Variants.none () Set.univ := fun t => by
  rw [bigSep_W1, bigSep_W1]
  exact r1_sound_body V c t

theorem hin1 (c : Dev nD) : Pipeline.ΦA spec1 c ⊢ (dat1 V c).Φ 0 := by
  rw [r1_PhiA_eq]; show _ ⊢ r1_PhiS V c 0 (Nat.zero_le _); unfold r1_PhiS
  iintro ⟨⟨⟨%d, HS⟩, HR⟩, Hg⟩
  iframe HR Hg
  iexists d; isplitr; · ipureintro; exact fun h => absurd rfl h
  iexact HS

theorem hout1 (c : Dev nD) : (dat1 V c).Φ (Fin.last cfg1.N) ⊢ Pipeline.ΦA spec1 c := by
  rw [r1_PhiA_eq]; show r1_PhiS V c _ (Nat.le_of_lt_succ (Fin.isLt _)) ⊢ _; unfold r1_PhiS
  iintro ⟨⟨⟨%d, -, HS⟩, HR⟩, Hg⟩
  iframe HR Hg
  iexists d; iexact HS

end Cert.Kernel.Reg

end
-- ==== Proof.K.R2Body.lean ====
import proofs.«154970_j43301860278975_1_alg».proof.Proof.Gen.Kernel.Launch
import proofs.«154970_j43301860278975_1_alg».proof.Proof.Gen.Kernel.Skeleton
import proofs.«154970_j43301860278975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_9 (x0 : Vec F S1x1024x256 .f32) (x1 : Vec F S1x256x256 .f32) (x2 : Vec F S1x1024x512 .f32) (x3 : Vec F S256x512 .f32) (x4 : Vec F S1x512 .f32) (x5 : Vec F S1x512 .f32) (x6 : Vec F S1x512 .f32) (x7 : Vec F S1x512 .f32) (x8 : Vec F S1x512 .f32) : Vec F S1x1024x512 .f32 :=
  k2_pay1 (k2_pay2 x2) (k2_pay3 x0 x1 x3 x4 x5 x7 x8) (k2_pay4 x6)

theorem r2_zeros3 : (![0, 0, 0] : Fin 3 → Nat) = fun _ => 0 := funext (by decide)
theorem r2_zeros2 : (![0, 0] : Fin 2 → Nat) = fun _ => 0 := funext (by decide)

set_option maxHeartbeats 4000000 in
-- The body keeps its inputs and leaves out2_9 of them in the output, whatever the output held.
theorem sound_kernel2 (c : Dev nD) (E : Set ℕ) (i : grid2.Coords) (arg1 : Memref sig .tc .vmem S1x1024x256 .f32) (harg1 : arg1.IsWhole) (arg2 : Memref sig .tc .vmem S1x256x256 .f32) (harg2 : arg2.IsWhole) (arg3 : Memref sig .tc .vmem S1x1024x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x1024x512 .f32) (harg10 : arg10.IsWhole)
    (x0 : Vec F S1x1024x256 .f32) (x1 : Vec F S1x256x256 .f32) (x2 : Vec F S1x1024x512 .f32) (x3 : Vec F S256x512 .f32) (x4 : Vec F S1x512 .f32) (x5 : Vec F S1x512 .f32) (x6 : Vec F S1x512 .f32) (x7 : Vec F S1x512 .f32) (x8 : Vec F S1x512 .f32) (d : Vec F S1x1024x512 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare d
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out2_9 x0 x1 x2 x3 x4 x5 x6 x7 x8)) -∗ K ⟨⟩))
      ⊢ wp frame (wpE (defs₀ (F := F)) Variants.none c none) E (cc2__k3_kernel i arg1 harg1 arg2 harg2 arg3 harg3 arg4 harg4 arg5 harg5 arg6 harg6 arg7 harg7 arg8 harg8 arg9 harg9 arg10 harg10) K := by
  simp only [cc2__k3_kernel_eq_skeleton]; unfold cc2__k3_kernel_skel
  simp only [k2_part1_eq_skeleton]; unfold k2_part1_skel
  simp only [owns_eq_rep]
  iintro ⟨H0, H1, H2, H3, H4, H5, H6, H7, H8, H9, Hk⟩
  sl_exec
  sl_step
  iapply Hk
  iframe H0 H1 H2 H3 H4 H5 H6 H7 H8
  rw [← owns_eq_rep]; unfold owns
  iexists _; isplitr
  swap; · iexact H9
  ipureintro
  rw [View.read_writes_eq_canon _ _ _ (fun y => ⟨_, List.mem_singleton_self _, View.mem_set_unit_zero r2_zeros3 inb_S1x1024x512_S1x1024x512_0_0_0 y⟩),
    View.canon_unit_zero (S := S1x1024x512) r2_zeros3]
  sl_unfold_run_names
  simp only [View.readAt_eq_ld, View.read_rep, View.ld_unit_zero (S := S1x1024x256) r2_zeros3, View.ld_unit_zero (S := S1x256x256) r2_zeros3, View.ld_unit_zero (S := S1x1024x512) r2_zeros3, View.ld_unit_zero (S := S256x512) r2_zeros2, View.ld_unit_zero (S := S1x512) r2_zeros2]
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

-- What each input window holds when the body starts, and what the body leaves there: the window's block of the entry array.
theorem pt2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) ∧ (∀ d, (dat2 V c).before 8 t d = iblk2 V c 8 t)
      ∧ (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t ∧ (dat2 V c).after 7 t = iblk2 V c 7 t ∧ (dat2 V c).after 8 t = iblk2 V c 8 t
      ∧ (dat2 V c).Φ t.succ = (dat2 V c).Φ t.castSucc ∧ (dat2 V c).owesAt () t.succ = (dat2 V c).owesAt () t.castSucc := by
  refine ⟨?_, ?_, ?_, ?_, ?_, ?_, ?_, ?_, ?_, rfl, rfl, rfl, rfl, rfl, rfl, rfl, rfl, rfl, rfl, rfl⟩ <;> exact fun d =>
    ((dat2 V c).before_in_eq_fetched _ rfl (fun _ => rfl) (fun _ _ _ => rfl) (fun _ => rfl) t d).trans rfl

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

theorem body_obligation2 (c : Dev nD) : BodyObligation (dat2 (F := F) V c) (defs₀ (F := F)) Variants.none () Set.univ := fun t => by
  rw [bigSep_W2, bigSep_W2]
  simp only [pt2 V c t, after2_9]
  change _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel2
  iframe H0 H1 H2 H3 H4 H5 H6 H7 H8 H9
  iintro ⟨H0, H1, H2, H3, H4, H5, H6, H7, H8, H9⟩
  iframe

end Cert.Kernel.Reg

end
-- ==== Proof.K.R3Body.lean ====
import proofs.«154970_j43301860278975_1_alg».proof.Proof.Gen.Kernel.Launch
import proofs.«154970_j43301860278975_1_alg».proof.Proof.Gen.Kernel.Skeleton
import proofs.«154970_j43301860278975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3 (x0 : Vec F S1x1024x512 .f32) (x1 : Vec F S512x256 .f32) (x2 : Vec F S1x256 .f32) (x3 : Vec F S1x256x256 .f32) (x4 : Vec F S256x512 .f32) (x5 : Vec F S1x512 .f32) (x6 : Vec F S1x512 .f32) (x7 : Vec F S1x512 .f32) (x8 : Vec F S1x512 .f32) (x9 : Vec F S1x512 .f32) : Vec F S1x1024x512 .f32 :=
  k3_pay1 (k3_pay2 x0) (k3_pay3 x6) (k3_pay4 x7) (k3_pay5 x9) (k3_pay6 x0 x1 x2 x3 x4 x5 x8)

theorem r3_zeros3 : (![0, 0, 0] : Fin 3 → Nat) = fun _ => 0 := funext (by decide)
theorem r3_zeros2 : (![0, 0] : Fin 2 → Nat) = fun _ => 0 := funext (by decide)

set_option maxHeartbeats 4000000 in
-- The body keeps its inputs and leaves out3 of them in the output, whatever the output held.
theorem sound_kernel3 (c : Dev nD) (E : Set ℕ) (i : grid3.Coords) (arg2 : Memref sig .tc .vmem S1x1024x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1024x512 .f32) (harg12 : arg12.IsWhole)
    (x0 : Vec F S1x1024x512 .f32) (x1 : Vec F S512x256 .f32) (x2 : Vec F S1x256 .f32) (x3 : Vec F S1x256x256 .f32) (x4 : Vec F S256x512 .f32) (x5 : Vec F S1x512 .f32) (x6 : Vec F S1x512 .f32) (x7 : Vec F S1x512 .f32) (x8 : Vec F S1x512 .f32) (x9 : Vec F S1x512 .f32) (d : Vec F S1x1024x512 .f32) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare d
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare (out3 x0 x1 x2 x3 x4 x5 x6 x7 x8 x9)) -∗ K ⟨⟩))
      ⊢ wp frame (wpE (defs₀ (F := F)) Variants.none c none) E (cc3__k4_kernel i arg2 harg2 arg3 harg3 arg4 harg4 arg5 harg5 arg6 harg6 arg7 harg7 arg8 harg8 arg9 harg9 arg10 harg10 arg11 harg11 arg12 harg12) K := by
  simp only [cc3__k4_kernel_eq_skeleton]; unfold cc3__k4_kernel_skel
  simp only [k3_part1_eq_skeleton]; unfold k3_part1_skel
  simp only [owns_eq_rep]
  iintro ⟨H0, H1, H2, H3, H4, H5, H6, H7, H8, H9, H10, Hk⟩
  sl_exec
  sl_step
  iapply Hk
  iframe H0 H1 H2 H3 H4 H5 H6 H7 H8 H9
  rw [← owns_eq_rep]; unfold owns
  iexists _; isplitr
  swap; · iexact H10
  ipureintro
  rw [View.read_writes_eq_canon _ _ _ (fun y => ⟨_, List.mem_singleton_self _, View.mem_set_unit_zero r3_zeros3 inb_S1x1024x512_S1x1024x512_0_0_0 y⟩),
    View.canon_unit_zero (S := S1x1024x512) r3_zeros3]
  sl_unfold_run_names
  simp only [View.readAt_eq_ld, View.read_rep, View.ld_unit_zero (S := S1x1024x512) r3_zeros3, View.ld_unit_zero (S := S512x256) r3_zeros2, View.ld_unit_zero (S := S1x256) r3_zeros2, View.ld_unit_zero (S := S1x256x256) r3_zeros3, View.ld_unit_zero (S := S256x512) r3_zeros2, View.ld_unit_zero (S := S1x512) r3_zeros2]
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_10 (c : Dev nD) (t : Fin cfg3.N) : (dat3 V c).after 10 t = out3 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

-- What each input window holds when the body starts, and what the body leaves there: the window's block of the entry array.
theorem pt3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) ∧ (∀ d, (dat3 V c).before 6 t d = iblk3 V c 6 t) ∧ (∀ d, (dat3 V c).before 7 t d = iblk3 V c 7 t) ∧ (∀ d, (dat3 V c).before 8 t d = iblk3 V c 8 t) ∧ (∀ d, (dat3 V c).before 9 t d = iblk3 V c 9 t)
      ∧ (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = iblk3 V c 5 t ∧ (dat3 V c).after 6 t = iblk3 V c 6 t ∧ (dat3 V c).after 7 t = iblk3 V c 7 t ∧ (dat3 V c).after 8 t = iblk3 V c 8 t ∧ (dat3 V c).after 9 t = iblk3 V c 9 t
      ∧ (dat3 V c).Φ t.succ = (dat3 V c).Φ t.castSucc ∧ (dat3 V c).owesAt () t.succ = (dat3 V c).owesAt () t.castSucc := by
  refine ⟨?_, ?_, ?_, ?_, ?_, ?_, ?_, ?_, ?_, ?_, rfl, rfl, rfl, rfl, rfl, rfl, rfl, rfl, rfl, rfl, rfl, rfl⟩ <;> exact fun d =>
    ((dat3 V c).before_in_eq_fetched _ rfl (fun _ => rfl) (fun _ _ _ => rfl) (fun _ => rfl) t d).trans rfl

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

theorem body_obligation3 (c : Dev nD) : BodyObligation (dat3 (F := F) V c) (defs₀ (F := F)) Variants.none () Set.univ := fun t => by
  rw [bigSep_W3, bigSep_W3]
  simp only [pt3 V c t, after3_10]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel3
  iframe H0 H1 H2 H3 H4 H5 H6 H7 H8 H9 H10
  iintro ⟨H0, H1, H2, H3, H4, H5, H6, H7, H8, H9, H10⟩
  iframe

end Cert.Kernel.Reg

end
-- ==== Proof.K.Fold.lean ====
import proofs.«154970_j43301860278975_1_alg».proof.Proof.Gen.Kernel.Launch
import proofs.«154970_j43301860278975_1_alg».proof.Proof.Gen.Kernel.Skeleton
import proofs.«154970_j43301860278975_1_alg».proof.Proof.Gen.Kernel.Points
import proofs.«154970_j43301860278975_1_alg».proof.Proof.K.R0Body
import proofs.«154970_j43301860278975_1_alg».proof.Proof.K.R1Body
import proofs.«154970_j43301860278975_1_alg».proof.Proof.K.R2Body
import proofs.«154970_j43301860278975_1_alg».proof.Proof.K.R3Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Cert.Kernel Cert.Kernel.Gen
open Idealize.ShloMosaic Idealize.ShloMosaic.TcCoe

variable {F : FTy → Type} [FloatOps F]

variable (m : (ℓ : Loc nD τ sig) → Buf (Elt F) ℓ)

private theorem ne_of_notin {α β : Type} [Fintype α] [DecidableEq β] {f : α → β} {b : β} (hb : b ∉ Finset.univ.image f) (w : α) : f w ≠ b :=
  fun e => hb (Finset.mem_image.mpr ⟨w, Finset.mem_univ _, e⟩)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b (ne_of_notin hb)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b (ne_of_notin hb)

def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N :=
  Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) :=
  Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b (ne_of_notin hb)

def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N :=
  Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) :=
  Pipeline.withArrays_of_ne spec3 c _ _ b hb
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b (ne_of_notin hb)

abbrev W6 : Dev nD → Valuation τ sig (Elt F) := fun c => StableHlo.after hostOps4 (W5 m c)

end Cert.Kernel.Reg

end
-- ==== Proof.K.Run.lean ====
import proofs.«154970_j43301860278975_1_alg».proof.Proof.K.Fold
import proofs.«154970_j43301860278975_1_alg».proof.Proof.Gen.Kernel.Regions

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

private theorem keep {cfg : Cfg sig Λ₀} (c : Dev nD) (dat : Dat τ (Elt F) Unit ℕ (UR sig nD τ) ℕ cfg c) (V : Valuation τ sig (Elt F))
    (hA : ∀ w, dat.A w = V (Proc.devRef .tc (Pipeline.arrRef cfg.spec w))) (hinj : Function.Injective (Pipeline.arrRef cfg.spec))
    (b : Ref sig .tc) (hb : ∀ w, (cfg.win w).isOut = true → Pipeline.arrRef cfg.spec w ≠ b) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c V _ w).trans ((dat.arrAt_in w (Bool.eq_false_iff.mpr fun e => hb w e rfl) _).trans (hA w))
  · exact Pipeline.withArrays_of_ne _ c _ _ b fun w e => h ⟨w, e⟩

theorem W6_keep (c : Dev nD) (b : Ref sig .tc)
    (h : b ∉ hostOps4_W ∧ (∀ w, (cfg3.win w).isOut = true → Pipeline.arrRef spec3 w ≠ b)
      ∧ (∀ w, (cfg2.win w).isOut = true → Pipeline.arrRef spec2 w ≠ b) ∧ (∀ w, (cfg1.win w).isOut = true → Pipeline.arrRef spec1 w ≠ b)
      ∧ (∀ w, (cfg0.win w).isOut = true → Pipeline.arrRef spec0 w ≠ b) ∧ b ∉ hostOps0_W) :
    W6 m c (Proc.devRef .tc b) = m ((c : Thread nD τ).loc b) :=
  (StableHlo.after_of_writes_sub hostOps4 _ hostOps4_writes h.1).trans <|
    (keep c (dat3 (V4 m) c) (W4 m c) (A_eq3 (V4 m) c) launch3.win.arr_inj b h.2.1).trans <|
    (keep c (dat2 (V3 m) c) (W3 m c) (A_eq2 (V3 m) c) launch2.win.arr_inj b h.2.2.1).trans <|
    (keep c (dat1 (V2 m) c) (W2 m c) (A_eq1 (V2 m) c) launch1.win.arr_inj b h.2.2.2.1).trans <|
    (keep c (dat0 (V1 m) c) (W1 m c) (A_eq0 (V1 m) c) launch0.win.arr_inj b h.2.2.2.2.1).trans <|
    StableHlo.after_of_writes_sub hostOps0 _ hostOps0_writes h.2.2.2.2.2

def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W6 m c) ∗ ∃ r, prngReg c r)
private abbrev rd (W : Dev nD → Valuation τ sig (Elt F)) : (c : Dev nD) → (b : Ref sig .tc) → Buf (Elt F) ((c : Thread nD τ).loc b) := fun c b => W c b

set_option backward.isDefEq.respectTransparency.types false in
/-- One region's record, generic in the region number: entered with every buffer at `Wi`, left with every buffer at `Wo`. -/
private def reg (p : Fin 4) (lf : Pipeline.LaunchFacts (nD := nD) (τ := τ) cfgs p)
    (hb : ∀ c, BodyObligation (pdats m p c) (defs₀ (F := F)) 𝒱₀ () Set.univ)
    (hq : ∀ c w, (pdats m p c).q w = fullShare) (hz : ∀ c t, (pdats m p c).owed t = 0)
    (hu : ∀ c t, (pdats m p c).recorded t = Set.univ)
    (Wi Wo : Dev nD → Valuation τ sig (Elt F))
    (hA : ∀ c w, (pdats m p c).A w = rd Wi c (Pipeline.arrRef (cfgs p).spec w))
    (hi : ∀ c, Pipeline.ΦA (cfgs p).spec c ⊢ (pdats m p c).Φ 0)
    (ho : ∀ c, (pdats m p c).Φ (Fin.last _) ⊢ Pipeline.ΦA (cfgs p).spec c)
    (hF : ∀ c w, (pdats m p c).arrAt w (cfgs p).N = rd Wo c (Pipeline.arrRef (cfgs p).spec w))
    (hr : ∀ c b, b ∉ Finset.univ.image (Pipeline.arrRef (cfgs p).spec) → rd Wo c b = rd Wi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Wi c)
  hentry c := by
    rw [Pipeline.ownSems0_none]
    have hsplit := Pipeline.arrays_of_unscopedBufs (p := p) (pcfgs (F := F)) adm (pdats m) lf.win lf.arr_whole c
      ((pdats m p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [hz c, hu c]
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Wi c) (rd Wo c) ((pdats m p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hz c]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg m 0 launch0 (body_obligation0 (V1 m)) (fun _ _ => rfl) (fun _ _ => rfl) (fun _ _ => rfl) (W1 m) (W2 m) (A_eq0 (V1 m)) (hin0 (V1 m)) (hout0 (V1 m)) (hF0 m) (hrest0 m)),
    .region (reg m 1 launch1 (body_obligation1 (V2 m)) (fun _ _ => rfl) (fun _ _ => rfl) (fun _ _ => rfl) (W2 m) (W3 m) (A_eq1 (V2 m)) (hin1 (V2 m)) (hout1 (V2 m)) (hF1 m) (hrest1 m)),
    .region (reg m 2 launch2 (body_obligation2 (V3 m)) (fun _ _ => rfl) (fun _ _ => rfl) (fun _ _ => rfl) (W3 m) (W4 m) (A_eq2 (V3 m)) (hin2 (V3 m)) (hout2 (V3 m)) (hF2 m) (hrest2 m)),
    .region (reg m 3 launch3 (body_obligation3 (V4 m)) (fun _ _ => rfl) (fun _ _ => rfl) (fun _ _ => rfl) (W4 m) (W5 m) (A_eq3 (V4 m)) (hin3 (V4 m)) (hout3 (V4 m)) (hF3 m) (hrest3 m)),
    .host (hseg hostOps4 hostOps4_sub hostOps4_fresh (W5 m)) ]
theorem main_run (c : Dev nD) : main (F := F) c = Pipeline.Seg.run (segs m) := (main_chain c).trans (by chain_rfl)

theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU _ : sProp 𝕄) ⊢ BI.own (emb₁ _) from .rfl); iexact Hu
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Reg

end
-- ==== Proof.KI.R0Body.lean ====
import proofs.«154970_j43301860278975_1_alg».proof.Proof.Gen.KernelIdeal.Launch
import proofs.«154970_j43301860278975_1_alg».proof.Proof.Gen.KernelIdeal.Skeleton
import proofs.«154970_j43301860278975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- A box of the shape's own sizes that fits in the shape sits at offset zero,
theorem r0_off {S : Shape} {off : Fin S.rank → Nat} (inb : ∀ a, off a + S.size a ≤ S.size a) : off = fun _ => 0 :=
  funext fun a => by have := inb a; omega

-- so a load through it reads the contents,
theorem r0_load {κ : Kind} {sp : Space} {S : Shape} {e : EltTy} (v : View sig κ sp S e) (off inb) (f : v.ty.Contents (Elt F)) :
    v.readAt (Elt F) (Rect.unit off S.size inb).toLoadRect f = v.read (Elt F) f :=
  View.ld_unit_zero (r0_off inb) inb _

-- and one store through it leaves its payload.
theorem r0_store {κ : Kind} {sp : Space} {S : Shape} {e : EltTy} (v : View sig κ sp S e) (off inb) (f : v.ty.Contents (Elt F))
    (w : S.Idx → Elt F e) : v.read (Elt F) (v.writes (Elt F) f [(⟨Rect.unit off S.size inb, w⟩ : View.Piece (Elt F) S e)]) = w := by
  rw [View.read_writes_eq_canon _ _ _ (fun y => ⟨_, List.mem_singleton_self _, View.mem_set_unit_zero (r0_off inb) inb y⟩),
    View.canon_unit_zero (r0_off inb)]

set_option maxHeartbeats 4000000 in
theorem sound_kernel0 (c : Dev nD) (E : Set ℕ) (i : grid0.Coords)
    (arg1 : Memref sig .tc .vmem S1x1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S1x1024x256 .f32) (harg6 : arg6.IsWhole)
    (arg7 : Memref sig .tc .vmem S1x256x256 .f32) (harg7 : arg7.IsWhole)
    (x0 : Vec F S1x1024x512 .f32) (x1 : Vec F S512x256 .f32) (x2 : Vec F S1x256 .f32) (x3 : Vec F S512x256 .f32) (x4 : Vec F S1x256 .f32)
    (d5 : Vec F S1x1024x256 .f32) (d6 : Vec F S1x256x256 .f32)
    (K : PUnit → sProp 𝕄) :
    iprop(owns c arg1 fullShare x0 ∗ owns c arg2 fullShare x1 ∗ owns c arg3 fullShare x2
        ∗ owns c arg4 fullShare x3 ∗ owns c arg5 fullShare x4
        ∗ owns c arg6 fullShare d5 ∗ owns c arg7 fullShare d6
        ∗ (iprop(owns c arg1 fullShare x0 ∗ owns c arg2 fullShare x1 ∗ owns c arg3 fullShare x2
            ∗ owns c arg4 fullShare x3 ∗ owns c arg5 fullShare x4
            ∗ owns c arg6 fullShare (k0_pay3 x0 x3 x4) ∗ owns c arg7 fullShare (k0_pay4 x0 x1 x3 x2 x4)) -∗ K ⟨⟩))
      ⊢ wp frame (wpE (defs₀ (F := F)) Variants.none c none) E (cc0__k1_kernel i arg1 harg1 arg2 harg2 arg3 harg3 arg4 harg4 arg5 harg5 arg6 harg6 arg7 harg7) K := by
  simp only [cc0__k1_kernel_eq_skeleton]; unfold cc0__k1_kernel_skel owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; rw [r0_store]; repeat rw [r0_load]
  iexists _; isplitr
  swap; · iexact H6
  ipureintro; rw [r0_store]; repeat rw [r0_load]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (iblk0 V c 0 t) (iblk0 V c 3 t) (iblk0 V c 4 t)
    | ⟨6, _⟩ => k0_pay4 (iblk0 V c 0 t) (iblk0 V c 1 t) (iblk0 V c 3 t) (iblk0 V c 2 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = k0_pay3 (iblk0 V c 0 t) (iblk0 V c 3 t) (iblk0 V c 4 t) := by dsimp only [dat0]
theorem after0_6 (c : Dev nD) (t : Fin cfg0.N) :
    (dat0 V c).after 6 t = k0_pay4 (iblk0 V c 0 t) (iblk0 V c 1 t) (iblk0 V c 3 t) (iblk0 V c 2 t) (iblk0 V c 4 t) := by dsimp only [dat0]

-- At every point each input window holds its block of the entry array, before the body and after it.
theorem pt0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t)
      ∧ (∀ d, (dat0 V c).before 4 t d = iblk0 V c 4 t)
      ∧ (dat0 V c).after 0 t = iblk0 V c 0 t ∧ (dat0 V c).after 1 t = iblk0 V c 1 t ∧ (dat0 V c).after 2 t = iblk0 V c 2 t
      ∧ (dat0 V c).after 3 t = iblk0 V c 3 t ∧ (dat0 V c).after 4 t = iblk0 V c 4 t
      ∧ (dat0 V c).Φ t.succ = (dat0 V c).Φ t.castSucc ∧ (dat0 V c).owesAt () t.succ = (dat0 V c).owesAt () t.castSucc := by
  refine ⟨?_, ?_, ?_, ?_, ?_, rfl, rfl, rfl, rfl, rfl, rfl, rfl⟩ <;> exact fun d =>
    ((dat0 V c).before_in_eq_fetched _ rfl (fun _ => rfl) (fun _ _ _ => rfl) (fun _ => rfl) t d).trans rfl

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

theorem body_obligation0 (c : Dev nD) : BodyObligation (dat0 (F := F) V c) (defs₀ (F := F)) Variants.none () Set.univ := fun t => by
  rw [bigSep_W0, bigSep_W0]
  simp only [pt0 V c t, after0_5, after0_6]
  change _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel0
  iframe H0 H1 H2 H3 H4 H5 H6
  iintro ⟨H0, H1, H2, H3, H4, H5, H6⟩
  iframe

end Cert.KernelIdeal.Reg

end
-- ==== Proof.KI.R1Body.lean ====
import proofs.«154970_j43301860278975_1_alg».proof.Proof.Gen.KernelIdeal.Launch
import proofs.«154970_j43301860278975_1_alg».proof.Proof.Gen.KernelIdeal.Skeleton
import proofs.«154970_j43301860278975_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_cond0 (i : grid1.Coords) : Prop := (Scalar.cmpi .ne (Scalar.extui (Scalar.cmpi .eq (BitVec.ofNat 32 (i 1).val) 0#32)) 0#32) = 1#1
theorem r1_hcond0 : ∀ t : Fin cfg1.N, r1_cond0 (grid1.coords t) ↔ t.val % 4 = 0 :=
  (by decide +kernel : ∀ t : Fin grid1.N, r1_cond0 (grid1.coords t) ↔ t.val % 4 = 0)
abbrev r1_cond1 (i : grid1.Coords) : Prop := k1_cond2 i = 1#1
theorem r1_hcond1 : ∀ t : Fin cfg1.N, r1_cond1 (grid1.coords t) ↔ t.val % 4 = 3 :=
  (by decide +kernel : ∀ t : Fin grid1.N, r1_cond1 (grid1.coords t) ↔ t.val % 4 = 3)

theorem r1_idleAt5 (i : grid1.Coords) (h : ¬r1_cond1 i) : cfg1.idle 5 i = true := by
  show (!(k1_cond2 i == 1#1)) = true
  simp only [Bool.not_eq_true', beq_eq_false_iff_ne, ne_eq]; exact h
theorem r1_liveAt5 (i : grid1.Coords) (h : r1_cond1 i) : cfg1.idle 5 i = false := by
  show (!(k1_cond2 i == 1#1)) = false
  simp only [Bool.not_eq_false', beq_iff_eq]; exact h

theorem r1_hz2 : (![0, 0] : Fin 2 → Nat) = fun _ => 0 := funext fun a => by fin_cases a <;> rfl
theorem r1_hz3 : (![0, 0, 0] : Fin 3 → Nat) = fun _ => 0 := funext fun a => by fin_cases a <;> rfl

theorem r1_read_writes_last_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

set_option maxHeartbeats 4000000 in
/-- One grid point: the sum restarts from zero at a batch's first tile, and its scaled value is stored at the last. -/
theorem r1_run (c : Dev nD) (t : Fin cfg1.N)
    (arg2 : Memref sig .tc .vmem S1x1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S512x256 .f32) (harg5 : arg5.IsWhole)
    (arg6 : Memref sig .tc .vmem S1x256 .f32) (harg6 : arg6.IsWhole) (arg7 : Memref sig .tc .vmem S1x256x256 .f32) (harg7 : arg7.IsWhole)
    (arg8 : Memref sig .tc .vmem S256x256 .f32) (harg8 : arg8.IsWhole)
    (x0 : Vec F S1x1024x512 .f32) (x1 : Vec F S512x256 .f32) (x2 : Vec F S1x256 .f32) (x3 : Vec F S512x256 .f32) (x4 : Vec F S1x256 .f32)
    (x5 : Vec F S1x256x256 .f32) (xs acc : Vec F S256x256 .f32)
    (hacc : acc = k1_pay2 x0 x1 x3 x2 x4 (if t.val % 4 = 0 then k1_pay1 else xs)) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if t.val % 4 = 3 then k1_pay3 acc else x5) ∗ owns (c : Thread nD τ) arg8 fullShare acc) -∗ K ⟨⟩))
      ⊢ wp frame (wpE (defs₀ (F := F)) Variants.none c none) E (cc1__k2_kernel (grid1.coords t) arg2 harg2 arg3 harg3 arg4 harg4 arg5 harg5 arg6 harg6 arg7 harg7 arg8 harg8) K := by
  subst hacc
  by_cases h0 : t.val % 4 = 0 <;> by_cases h1 : t.val % 4 = 3
  · omega
  all_goals
    have hc0 := h0; rw [← r1_hcond0 t] at hc0
    have hc1 := h1; rw [← r1_hcond1 t] at hc1
    first | rw [if_pos h0] | rw [if_neg h0]
    first | rw [if_pos h1] | rw [if_neg h1]
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      first
      | exact hf5
      | sl_unfold_words
        rw [r1_read_writes_last_whole _ _ r1_hz3]
        simp only [View.readCov_unit_zero (S := S256x256) _ r1_hz2, View.readAt_eq_ld, harg2.read_unread, harg3.read_unread, harg4.read_unread, harg5.read_unread, harg6.read_unread, harg8.read_unread,
        View.ld_unit_zero (S := S1x1024x512) r1_hz3, View.ld_unit_zero (S := S512x256) r1_hz2, View.ld_unit_zero (S := S1x256) r1_hz2, View.ld_unit_zero (S := S256x256) r1_hz2]
    iexists _; isplitr
    swap; · iexact HS
    ipureintro
    sl_unfold_words
    rw [r1_read_writes_last_whole _ _ r1_hz2]
    simp only [View.readCov_unit_zero (S := S256x256) _ r1_hz2, View.readAt_eq_ld, harg2.read_unread, harg3.read_unread, harg4.read_unread, harg5.read_unread, harg6.read_unread, harg8.read_unread,
      View.ld_unit_zero (S := S1x1024x512) r1_hz3, View.ld_unit_zero (S := S512x256) r1_hz2, View.ld_unit_zero (S := S1x256) r1_hz2, View.ld_unit_zero (S := S256x256) r1_hz2]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S256x256 .f32
  | 0, h => k1_pay2 (iblk1 V c 0 ⟨0, h⟩) (iblk1 V c 1 ⟨0, h⟩) (iblk1 V c 3 ⟨0, h⟩) (iblk1 V c 2 ⟨0, h⟩) (iblk1 V c 4 ⟨0, h⟩) k1_pay1
  | n + 1, h => k1_pay2 (iblk1 V c 0 ⟨n + 1, h⟩) (iblk1 V c 1 ⟨n + 1, h⟩) (iblk1 V c 3 ⟨n + 1, h⟩) (iblk1 V c 2 ⟨n + 1, h⟩) (iblk1 V c 4 ⟨n + 1, h⟩)
      (if (n + 1) % 4 = 0 then k1_pay1 else accAt1 c n (Nat.lt_of_succ_lt h))

/-- The sum after a point is the point's product added to zero at a batch's first tile, else to the sum before. -/
theorem r1_accAt (c : Dev nD) (t : Fin cfg1.N) (d : Vec F S256x256 .f32)
    (hd : ∀ h : t.val ≠ 0, d = accAt1 V c (t.val - 1) (Nat.lt_of_le_of_lt (Nat.sub_le _ _) t.isLt)) :
    accAt1 V c t.val t.isLt = k1_pay2 (iblk1 V c 0 t) (iblk1 V c 1 t) (iblk1 V c 3 t) (iblk1 V c 2 t) (iblk1 V c 4 t) (if t.val % 4 = 0 then k1_pay1 else d) := by
  obtain ⟨n, hn⟩ := t
  cases n with
  | zero => rfl
  | succ n => cases hd (Nat.succ_ne_zero n); rfl

abbrev r1_scM : Memref sig .tc .vmem S256x256 .f32 := Memref.whole cc1_scratch0

theorem r1_PhiA_eq (c : Dev nD) :
    (Pipeline.ΦA spec1 c : sProp 𝕄)
      = iprop(iprop(iprop(∃ d, owns (c : Thread nD τ) r1_scM fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [r1_scM, owns_whole]; try rfl

/-- Before point n the scratch holds the sum after point n - 1 (anything before the first point). -/
def r1_PhiS (c : Dev nD) (n : ℕ) (hn : n ≤ cfg1.N) : sProp 𝕄 :=
  iprop(iprop((∃ d, ⌜∀ h : n ≠ 0, d = accAt1 V c (n - 1) (by omega)⌝ ∗ owns (c : Thread nD τ) r1_scM fullShare d)
      ∗ Pipeline.scopedRestBut (Ix := Unit) (Name := ℕ) (U := UR sig nD τ) (Lvl := ℕ) (Val := Elt F) spec1 c [cc1_scratch0]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (accAt1 V c t.val t.isLt)
  Φ t := r1_PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) (h : t.val % 4 = 3) :
    (dat1 V c).after 5 t = k1_pay3 (accAt1 V c t.val t.isLt) := rfl

/-- Every input window holds its own block at every point. -/
theorem r1_before (c : Dev nD) (t : Fin cfg1.N) :
    (∀ d, (dat1 V c).before 0 t d = iblk1 V c 0 t)
      ∧ (∀ d, (dat1 V c).before 1 t d = iblk1 V c 1 t)
      ∧ (∀ d, (dat1 V c).before 2 t d = iblk1 V c 2 t)
      ∧ (∀ d, (dat1 V c).before 3 t d = iblk1 V c 3 t)
      ∧ (∀ d, (dat1 V c).before 4 t d = iblk1 V c 4 t) := by
  refine ⟨?_, ?_, ?_, ?_, ?_⟩ <;>
    exact fun d => ((dat1 V c).before_in_eq_fetched _ rfl (fun _ => rfl) (fun _ _ _ => rfl) (fun _ => rfl) t d).trans rfl

theorem r1_noFlush5 (t : Fin cfg1.N) (h : ¬t.val % 4 = 3) : (cfg1.win 5).flush t = false :=
  Bool.eq_false_iff.mpr fun hf => h ((flush1_5 t).mp hf)

/-- The output block is left at the scaled sum at a batch's last tile, and as found at the other tiles. -/
theorem r1_leaves5 (c : Dev nD) (t : Fin cfg1.N) (d) :
    owns (c : Thread nD τ) (st1_5 t) fullShare (if t.val % 4 = 3 then k1_pay3 (accAt1 V c t.val t.isLt) else (dat1 V c).before 5 t d)
      ⊢ (dat1 V c).leavesExact 5 t := by
  by_cases h : t.val % 4 = 3
  · rw [if_pos h]; unfold Dat.leavesExact; rw [r1_liveAt5 _ ((r1_hcond1 t).mpr h)]; exact .rfl
  · rw [if_neg h, Dat.leavesExact_idle _ 5 t (r1_idleAt5 _ (mt (r1_hcond1 t).mp h)) (r1_noFlush5 t h)]
    iintro H; iexists d; iexact H

theorem r1_sound_body (c : Dev nD) (t : Fin cfg1.N) :
    iprop(r1_PhiS V c t.val (Nat.le_of_lt t.isLt) ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
      ⊢ wp frame (wpE (defs₀ (F := F)) Variants.none c none) Set.univ (bodyAt1 t) (fun _ =>
        iprop(r1_PhiS V c (t.val + 1) t.isLt ∗ (dat1 V c).owesAt () t.castSucc
          ∗ owns (c : Thread nD τ) (st1_0 t) fullShare (iblk1 V c 0 t)
          ∗ owns (c : Thread nD τ) (st1_1 t) fullShare (iblk1 V c 1 t)
          ∗ owns (c : Thread nD τ) (st1_2 t) fullShare (iblk1 V c 2 t)
          ∗ owns (c : Thread nD τ) (st1_3 t) fullShare (iblk1 V c 3 t)
          ∗ owns (c : Thread nD τ) (st1_4 t) fullShare (iblk1 V c 4 t)
          ∗ (dat1 V c).leavesExact 5 t)) := by
  unfold r1_PhiS bodyAt1
  simp only [r1_before V c t]
  iintro ⟨⟨⟨⟨%d, %hd, HS⟩, HR⟩, Hg⟩, Ho, ⟨%d0, H0⟩, ⟨%d1, H1⟩, ⟨%d2, H2⟩, ⟨%d3, H3⟩, ⟨%d4, H4⟩, ⟨%d5, H5⟩⟩
  iapply (r1_run c t (st1_0 t) _ (st1_1 t) _ (st1_2 t) _ (st1_3 t) _ (st1_4 t) _ (st1_5 t) _ r1_scM (Memref.isWhole_whole _)
    _ _ _ _ _ _ d _ (r1_accAt V c t d hd) Set.univ _)
  iframe H0 H1 H2 H3 H4 H5 HS
  iintro ⟨H0, H1, H2, H3, H4, H5, HS⟩
  iframe HR Hg Ho H0 H1 H2 H3 H4
  isplitl [HS]
  · iexists _; isplitr
    swap; · iexact HS
    ipureintro; exact fun _ => rfl
  iapply (r1_leaves5 V c t d5); iexact H5

theorem body_obligation1 (c : Dev nD) : BodyObligation (dat1 (F := F) V c) (defs₀ (F := F)) Variants.none () Set.univ := fun t => by
  rw [bigSep_W1, bigSep_W1]
  exact r1_sound_body V c t

theorem hin1 (c : Dev nD) : Pipeline.ΦA spec1 c ⊢ (dat1 V c).Φ 0 := by
  rw [r1_PhiA_eq]; show _ ⊢ r1_PhiS V c 0 (Nat.zero_le _); unfold r1_PhiS
  iintro ⟨⟨⟨%d, HS⟩, HR⟩, Hg⟩
  iframe HR Hg
  iexists d; isplitr; · ipureintro; exact fun h => absurd rfl h
  iexact HS

theorem hout1 (c : Dev nD) : (dat1 V c).Φ (Fin.last cfg1.N) ⊢ Pipeline.ΦA spec1 c := by
  rw [r1_PhiA_eq]; show r1_PhiS V c _ (Nat.le_of_lt_succ (Fin.isLt _)) ⊢ _; unfold r1_PhiS
  iintro ⟨⟨⟨%d, -, HS⟩, HR⟩, Hg⟩
  iframe HR Hg
  iexists d; iexact HS

end Cert.KernelIdeal.Reg

end
-- ==== Proof.KI.R2Body.lean ====
import proofs.«154970_j43301860278975_1_alg».proof.Proof.Gen.KernelIdeal.Launch
import proofs.«154970_j43301860278975_1_alg».proof.Proof.Gen.KernelIdeal.Skeleton
import proofs.«154970_j43301860278975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_9 (x0 : Vec F S1x1024x256 .f32) (x1 : Vec F S1x256x256 .f32) (x2 : Vec F S1x1024x512 .f32) (x3 : Vec F S256x512 .f32) (x4 : Vec F S1x512 .f32) (x5 : Vec F S1x512 .f32) (x6 : Vec F S1x512 .f32) (x7 : Vec F S1x512 .f32) (x8 : Vec F S1x512 .f32) : Vec F S1x1024x512 .f32 :=
  k2_pay1 (k2_pay2 x2) (k2_pay3 x0 x1 x3 x4 x5 x7 x8) (k2_pay4 x6)

theorem r2_zeros3 : (![0, 0, 0] : Fin 3 → Nat) = fun _ => 0 := funext (by decide)
theorem r2_zeros2 : (![0, 0] : Fin 2 → Nat) = fun _ => 0 := funext (by decide)

set_option maxHeartbeats 4000000 in
-- The body keeps its inputs and leaves out2_9 of them in the output, whatever the output held.
theorem sound_kernel2 (c : Dev nD) (E : Set ℕ) (i : grid2.Coords) (arg1 : Memref sig .tc .vmem S1x1024x256 .f32) (harg1 : arg1.IsWhole) (arg2 : Memref sig .tc .vmem S1x256x256 .f32) (harg2 : arg2.IsWhole) (arg3 : Memref sig .tc .vmem S1x1024x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x1024x512 .f32) (harg10 : arg10.IsWhole)
    (x0 : Vec F S1x1024x256 .f32) (x1 : Vec F S1x256x256 .f32) (x2 : Vec F S1x1024x512 .f32) (x3 : Vec F S256x512 .f32) (x4 : Vec F S1x512 .f32) (x5 : Vec F S1x512 .f32) (x6 : Vec F S1x512 .f32) (x7 : Vec F S1x512 .f32) (x8 : Vec F S1x512 .f32) (d : Vec F S1x1024x512 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare d
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out2_9 x0 x1 x2 x3 x4 x5 x6 x7 x8)) -∗ K ⟨⟩))
      ⊢ wp frame (wpE (defs₀ (F := F)) Variants.none c none) E (cc2__k3_kernel i arg1 harg1 arg2 harg2 arg3 harg3 arg4 harg4 arg5 harg5 arg6 harg6 arg7 harg7 arg8 harg8 arg9 harg9 arg10 harg10) K := by
  simp only [cc2__k3_kernel_eq_skeleton]; unfold cc2__k3_kernel_skel
  simp only [k2_part1_eq_skeleton]; unfold k2_part1_skel
  simp only [owns_eq_rep]
  iintro ⟨H0, H1, H2, H3, H4, H5, H6, H7, H8, H9, Hk⟩
  sl_exec
  sl_step
  iapply Hk
  iframe H0 H1 H2 H3 H4 H5 H6 H7 H8
  rw [← owns_eq_rep]; unfold owns
  iexists _; isplitr
  swap; · iexact H9
  ipureintro
  rw [View.read_writes_eq_canon _ _ _ (fun y => ⟨_, List.mem_singleton_self _, View.mem_set_unit_zero r2_zeros3 inb_S1x1024x512_S1x1024x512_0_0_0 y⟩),
    View.canon_unit_zero (S := S1x1024x512) r2_zeros3]
  sl_unfold_run_names
  simp only [View.readAt_eq_ld, View.read_rep, View.ld_unit_zero (S := S1x1024x256) r2_zeros3, View.ld_unit_zero (S := S1x256x256) r2_zeros3, View.ld_unit_zero (S := S1x1024x512) r2_zeros3, View.ld_unit_zero (S := S256x512) r2_zeros2, View.ld_unit_zero (S := S1x512) r2_zeros2]
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

-- What each input window holds when the body starts, and what the body leaves there: the window's block of the entry array.
theorem pt2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) ∧ (∀ d, (dat2 V c).before 8 t d = iblk2 V c 8 t)
      ∧ (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t ∧ (dat2 V c).after 7 t = iblk2 V c 7 t ∧ (dat2 V c).after 8 t = iblk2 V c 8 t
      ∧ (dat2 V c).Φ t.succ = (dat2 V c).Φ t.castSucc ∧ (dat2 V c).owesAt () t.succ = (dat2 V c).owesAt () t.castSucc := by
  refine ⟨?_, ?_, ?_, ?_, ?_, ?_, ?_, ?_, ?_, rfl, rfl, rfl, rfl, rfl, rfl, rfl, rfl, rfl, rfl, rfl⟩ <;> exact fun d =>
    ((dat2 V c).before_in_eq_fetched _ rfl (fun _ => rfl) (fun _ _ _ => rfl) (fun _ => rfl) t d).trans rfl

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

theorem body_obligation2 (c : Dev nD) : BodyObligation (dat2 (F := F) V c) (defs₀ (F := F)) Variants.none () Set.univ := fun t => by
  rw [bigSep_W2, bigSep_W2]
  simp only [pt2 V c t, after2_9]
  change _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel2
  iframe H0 H1 H2 H3 H4 H5 H6 H7 H8 H9
  iintro ⟨H0, H1, H2, H3, H4, H5, H6, H7, H8, H9⟩
  iframe

end Cert.KernelIdeal.Reg

end
-- ==== Proof.KI.R3Body.lean ====
import proofs.«154970_j43301860278975_1_alg».proof.Proof.Gen.KernelIdeal.Launch
import proofs.«154970_j43301860278975_1_alg».proof.Proof.Gen.KernelIdeal.Skeleton
import proofs.«154970_j43301860278975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3 (x0 : Vec F S1x1024x512 .f32) (x1 : Vec F S512x256 .f32) (x2 : Vec F S1x256 .f32) (x3 : Vec F S1x256x256 .f32) (x4 : Vec F S256x512 .f32) (x5 : Vec F S1x512 .f32) (x6 : Vec F S1x512 .f32) (x7 : Vec F S1x512 .f32) (x8 : Vec F S1x512 .f32) (x9 : Vec F S1x512 .f32) : Vec F S1x1024x512 .f32 :=
  k3_pay1 (k3_pay2 x0) (k3_pay3 x6) (k3_pay4 x7) (k3_pay5 x9) (k3_pay6 x0 x1 x2 x3 x4 x5 x8)

theorem r3_zeros3 : (![0, 0, 0] : Fin 3 → Nat) = fun _ => 0 := funext (by decide)
theorem r3_zeros2 : (![0, 0] : Fin 2 → Nat) = fun _ => 0 := funext (by decide)

set_option maxHeartbeats 4000000 in
-- The body keeps its inputs and leaves out3 of them in the output, whatever the output held.
theorem sound_kernel3 (c : Dev nD) (E : Set ℕ) (i : grid3.Coords) (arg2 : Memref sig .tc .vmem S1x1024x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1024x512 .f32) (harg12 : arg12.IsWhole)
    (x0 : Vec F S1x1024x512 .f32) (x1 : Vec F S512x256 .f32) (x2 : Vec F S1x256 .f32) (x3 : Vec F S1x256x256 .f32) (x4 : Vec F S256x512 .f32) (x5 : Vec F S1x512 .f32) (x6 : Vec F S1x512 .f32) (x7 : Vec F S1x512 .f32) (x8 : Vec F S1x512 .f32) (x9 : Vec F S1x512 .f32) (d : Vec F S1x1024x512 .f32) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare d
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare (out3 x0 x1 x2 x3 x4 x5 x6 x7 x8 x9)) -∗ K ⟨⟩))
      ⊢ wp frame (wpE (defs₀ (F := F)) Variants.none c none) E (cc3__k4_kernel i arg2 harg2 arg3 harg3 arg4 harg4 arg5 harg5 arg6 harg6 arg7 harg7 arg8 harg8 arg9 harg9 arg10 harg10 arg11 harg11 arg12 harg12) K := by
  simp only [cc3__k4_kernel_eq_skeleton]; unfold cc3__k4_kernel_skel
  simp only [k3_part1_eq_skeleton]; unfold k3_part1_skel
  simp only [owns_eq_rep]
  iintro ⟨H0, H1, H2, H3, H4, H5, H6, H7, H8, H9, H10, Hk⟩
  sl_exec
  sl_step
  iapply Hk
  iframe H0 H1 H2 H3 H4 H5 H6 H7 H8 H9
  rw [← owns_eq_rep]; unfold owns
  iexists _; isplitr
  swap; · iexact H10
  ipureintro
  rw [View.read_writes_eq_canon _ _ _ (fun y => ⟨_, List.mem_singleton_self _, View.mem_set_unit_zero r3_zeros3 inb_S1x1024x512_S1x1024x512_0_0_0 y⟩),
    View.canon_unit_zero (S := S1x1024x512) r3_zeros3]
  sl_unfold_run_names
  simp only [View.readAt_eq_ld, View.read_rep, View.ld_unit_zero (S := S1x1024x512) r3_zeros3, View.ld_unit_zero (S := S512x256) r3_zeros2, View.ld_unit_zero (S := S1x256) r3_zeros2, View.ld_unit_zero (S := S1x256x256) r3_zeros3, View.ld_unit_zero (S := S256x512) r3_zeros2, View.ld_unit_zero (S := S1x512) r3_zeros2]
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_10 (c : Dev nD) (t : Fin cfg3.N) : (dat3 V c).after 10 t = out3 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

-- What each input window holds when the body starts, and what the body leaves there: the window's block of the entry array.
theorem pt3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) ∧ (∀ d, (dat3 V c).before 6 t d = iblk3 V c 6 t) ∧ (∀ d, (dat3 V c).before 7 t d = iblk3 V c 7 t) ∧ (∀ d, (dat3 V c).before 8 t d = iblk3 V c 8 t) ∧ (∀ d, (dat3 V c).before 9 t d = iblk3 V c 9 t)
      ∧ (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = iblk3 V c 5 t ∧ (dat3 V c).after 6 t = iblk3 V c 6 t ∧ (dat3 V c).after 7 t = iblk3 V c 7 t ∧ (dat3 V c).after 8 t = iblk3 V c 8 t ∧ (dat3 V c).after 9 t = iblk3 V c 9 t
      ∧ (dat3 V c).Φ t.succ = (dat3 V c).Φ t.castSucc ∧ (dat3 V c).owesAt () t.succ = (dat3 V c).owesAt () t.castSucc := by
  refine ⟨?_, ?_, ?_, ?_, ?_, ?_, ?_, ?_, ?_, ?_, rfl, rfl, rfl, rfl, rfl, rfl, rfl, rfl, rfl, rfl, rfl, rfl⟩ <;> exact fun d =>
    ((dat3 V c).before_in_eq_fetched _ rfl (fun _ => rfl) (fun _ _ _ => rfl) (fun _ => rfl) t d).trans rfl

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

theorem body_obligation3 (c : Dev nD) : BodyObligation (dat3 (F := F) V c) (defs₀ (F := F)) Variants.none () Set.univ := fun t => by
  rw [bigSep_W3, bigSep_W3]
  simp only [pt3 V c t, after3_10]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel3
  iframe H0 H1 H2 H3 H4 H5 H6 H7 H8 H9 H10
  iintro ⟨H0, H1, H2, H3, H4, H5, H6, H7, H8, H9, H10⟩
  iframe

end Cert.KernelIdeal.Reg

end
-- ==== Proof.KI.Fold.lean ====
import proofs.«154970_j43301860278975_1_alg».proof.Proof.Gen.KernelIdeal.Launch
import proofs.«154970_j43301860278975_1_alg».proof.Proof.Gen.KernelIdeal.Skeleton
import proofs.«154970_j43301860278975_1_alg».proof.Proof.Gen.KernelIdeal.Points
import proofs.«154970_j43301860278975_1_alg».proof.Proof.KI.R0Body
import proofs.«154970_j43301860278975_1_alg».proof.Proof.KI.R1Body
import proofs.«154970_j43301860278975_1_alg».proof.Proof.KI.R2Body
import proofs.«154970_j43301860278975_1_alg».proof.Proof.KI.R3Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Cert.KernelIdeal Cert.KernelIdeal.Gen
open Idealize.ShloMosaic Idealize.ShloMosaic.TcCoe

variable {F : FTy → Type} [FloatOps F]

variable (m : (ℓ : Loc nD τ sig) → Buf (Elt F) ℓ)

private theorem ne_of_notin {α β : Type} [Fintype α] [DecidableEq β] {f : α → β} {b : β} (hb : b ∉ Finset.univ.image f) (w : α) : f w ≠ b :=
  fun e => hb (Finset.mem_image.mpr ⟨w, Finset.mem_univ _, e⟩)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b (ne_of_notin hb)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b (ne_of_notin hb)

def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N :=
  Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) :=
  Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b (ne_of_notin hb)

def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N :=
  Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) :=
  Pipeline.withArrays_of_ne spec3 c _ _ b hb
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b (ne_of_notin hb)

abbrev W6 : Dev nD → Valuation τ sig (Elt F) := fun c => StableHlo.after hostOps4 (W5 m c)

end Cert.KernelIdeal.Reg

end
-- ==== Proof.KI.Run.lean ====
import proofs.«154970_j43301860278975_1_alg».proof.Proof.KI.Fold
import proofs.«154970_j43301860278975_1_alg».proof.Proof.Gen.KernelIdeal.Regions

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

private theorem keep {cfg : Cfg sig Λ₀} (c : Dev nD) (dat : Dat τ (Elt F) Unit ℕ (UR sig nD τ) ℕ cfg c) (V : Valuation τ sig (Elt F))
    (hA : ∀ w, dat.A w = V (Proc.devRef .tc (Pipeline.arrRef cfg.spec w))) (hinj : Function.Injective (Pipeline.arrRef cfg.spec))
    (b : Ref sig .tc) (hb : ∀ w, (cfg.win w).isOut = true → Pipeline.arrRef cfg.spec w ≠ b) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c V _ w).trans ((dat.arrAt_in w (Bool.eq_false_iff.mpr fun e => hb w e rfl) _).trans (hA w))
  · exact Pipeline.withArrays_of_ne _ c _ _ b fun w e => h ⟨w, e⟩

theorem W6_keep (c : Dev nD) (b : Ref sig .tc)
    (h : b ∉ hostOps4_W ∧ (∀ w, (cfg3.win w).isOut = true → Pipeline.arrRef spec3 w ≠ b)
      ∧ (∀ w, (cfg2.win w).isOut = true → Pipeline.arrRef spec2 w ≠ b) ∧ (∀ w, (cfg1.win w).isOut = true → Pipeline.arrRef spec1 w ≠ b)
      ∧ (∀ w, (cfg0.win w).isOut = true → Pipeline.arrRef spec0 w ≠ b) ∧ b ∉ hostOps0_W) :
    W6 m c (Proc.devRef .tc b) = m ((c : Thread nD τ).loc b) :=
  (StableHlo.after_of_writes_sub hostOps4 _ hostOps4_writes h.1).trans <|
    (keep c (dat3 (V4 m) c) (W4 m c) (A_eq3 (V4 m) c) launch3.win.arr_inj b h.2.1).trans <|
    (keep c (dat2 (V3 m) c) (W3 m c) (A_eq2 (V3 m) c) launch2.win.arr_inj b h.2.2.1).trans <|
    (keep c (dat1 (V2 m) c) (W2 m c) (A_eq1 (V2 m) c) launch1.win.arr_inj b h.2.2.2.1).trans <|
    (keep c (dat0 (V1 m) c) (W1 m c) (A_eq0 (V1 m) c) launch0.win.arr_inj b h.2.2.2.2.1).trans <|
    StableHlo.after_of_writes_sub hostOps0 _ hostOps0_writes h.2.2.2.2.2

def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W6 m c) ∗ ∃ r, prngReg c r)
private abbrev rd (W : Dev nD → Valuation τ sig (Elt F)) : (c : Dev nD) → (b : Ref sig .tc) → Buf (Elt F) ((c : Thread nD τ).loc b) := fun c b => W c b

set_option backward.isDefEq.respectTransparency.types false in
/-- One region's record, generic in the region number: entered with every buffer at `Wi`, left with every buffer at `Wo`. -/
private def reg (p : Fin 4) (lf : Pipeline.LaunchFacts (nD := nD) (τ := τ) cfgs p)
    (hb : ∀ c, BodyObligation (pdats m p c) (defs₀ (F := F)) 𝒱₀ () Set.univ)
    (hq : ∀ c w, (pdats m p c).q w = fullShare) (hz : ∀ c t, (pdats m p c).owed t = 0)
    (hu : ∀ c t, (pdats m p c).recorded t = Set.univ)
    (Wi Wo : Dev nD → Valuation τ sig (Elt F))
    (hA : ∀ c w, (pdats m p c).A w = rd Wi c (Pipeline.arrRef (cfgs p).spec w))
    (hi : ∀ c, Pipeline.ΦA (cfgs p).spec c ⊢ (pdats m p c).Φ 0)
    (ho : ∀ c, (pdats m p c).Φ (Fin.last _) ⊢ Pipeline.ΦA (cfgs p).spec c)
    (hF : ∀ c w, (pdats m p c).arrAt w (cfgs p).N = rd Wo c (Pipeline.arrRef (cfgs p).spec w))
    (hr : ∀ c b, b ∉ Finset.univ.image (Pipeline.arrRef (cfgs p).spec) → rd Wo c b = rd Wi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Wi c)
  hentry c := by
    rw [Pipeline.ownSems0_none]
    have hsplit := Pipeline.arrays_of_unscopedBufs (p := p) (pcfgs (F := F)) adm (pdats m) lf.win lf.arr_whole c
      ((pdats m p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [hz c, hu c]
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Wi c) (rd Wo c) ((pdats m p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hz c]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg m 0 launch0 (body_obligation0 (V1 m)) (fun _ _ => rfl) (fun _ _ => rfl) (fun _ _ => rfl) (W1 m) (W2 m) (A_eq0 (V1 m)) (hin0 (V1 m)) (hout0 (V1 m)) (hF0 m) (hrest0 m)),
    .region (reg m 1 launch1 (body_obligation1 (V2 m)) (fun _ _ => rfl) (fun _ _ => rfl) (fun _ _ => rfl) (W2 m) (W3 m) (A_eq1 (V2 m)) (hin1 (V2 m)) (hout1 (V2 m)) (hF1 m) (hrest1 m)),
    .region (reg m 2 launch2 (body_obligation2 (V3 m)) (fun _ _ => rfl) (fun _ _ => rfl) (fun _ _ => rfl) (W3 m) (W4 m) (A_eq2 (V3 m)) (hin2 (V3 m)) (hout2 (V3 m)) (hF2 m) (hrest2 m)),
    .region (reg m 3 launch3 (body_obligation3 (V4 m)) (fun _ _ => rfl) (fun _ _ => rfl) (fun _ _ => rfl) (W4 m) (W5 m) (A_eq3 (V4 m)) (hin3 (V4 m)) (hout3 (V4 m)) (hF3 m) (hrest3 m)),
    .host (hseg hostOps4 hostOps4_sub hostOps4_fresh (W5 m)) ]
theorem main_run (c : Dev nD) : main (F := F) c = Pipeline.Seg.run (segs m) := (main_chain c).trans (by chain_rfl)

theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU _ : sProp 𝕄) ⊢ BI.own (emb₁ _) from .rfl); iexact Hu
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Reg

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev c1024 : EReal := Ideal.ofBits .f32 0x3A800000#32
abbrev c4096 : EReal := Ideal.ofBits .f32 0x39800000#32
abbrev d1024 : EReal := Ideal.ofBits .f32 0x44800000#32
abbrev d4096 : EReal := Ideal.ofBits .f32 0x45800000#32
abbrev eps : EReal := Ideal.ofBits .f32 0x3A83126F#32

def conv (x : Fin 512 → EReal) (W : Fin 512 → Fin 256 → EReal) (b : Fin 256 → EReal) (j : Fin 256) : EReal :=
  (∑ k : Fin 512, x k * W k j) + b j

def nmat (th ax : Fin 1024 → Fin 256 → EReal) (i j : Fin 256) : EReal :=
  (∑ n : Fin 1024, th n i * ax n j) * c1024

def mmat (ph dx : Fin 4096 → Fin 256 → EReal) (i j : Fin 256) : EReal :=
  (∑ n : Fin 4096, ph n i * dx n j) * c4096

def kpre (r : Fin 256 → EReal) (M : Fin 256 → Fin 256 → EReal) (c : Fin 256) : EReal :=
  ∑ k : Fin 256, r k * M k c

def rpre1 (th : Fin 256 → EReal) (ph dx : Fin 4096 → Fin 256 → EReal) (c : Fin 256) : EReal :=
  ∑ m : Fin 4096, Ideal.div (∑ k : Fin 256, th k * ph m k) d4096 * dx m c

def rpre2 (ph : Fin 256 → EReal) (th ax : Fin 1024 → Fin 256 → EReal) (c : Fin 256) : EReal :=
  ∑ n : Fin 1024, Ideal.div (∑ k : Fin 256, th n k * ph k) d1024 * ax n c

def head (pre : Fin 256 → EReal) (W : Fin 256 → Fin 512 → EReal) (b g bta mu vr : Fin 512 → EReal) (res : EReal)
    (d : Fin 512) : EReal :=
  (g d * (((∑ c : Fin 256, pre c * W c d) + b d) - mu d)) * Ideal.rsqrt (vr d + eps) + bta d + res

section
variable (aim : Fin 1024 → Fin 512 → EReal) (det : Fin 4096 → Fin 512 → EReal)
  (Wg Wt Wp : Fin 512 → Fin 256 → EReal) (bg bt bp : Fin 256 → EReal)
  (Wh : Fin 256 → Fin 512 → EReal) (bh gh beth mh vh : Fin 512 → EReal)

def KOut1 (n : Fin 1024) (d : Fin 512) : EReal :=
  head (kpre (conv (aim n) Wt bt) (mmat (fun m => conv (det m) Wp bp) (fun m => conv (det m) Wg bg)))
    Wh bh gh beth mh vh (aim n d) d

def ROut1 (n : Fin 1024) (d : Fin 512) : EReal :=
  head (rpre1 (conv (aim n) Wt bt) (fun m => conv (det m) Wp bp) (fun m => conv (det m) Wg bg))
    Wh bh gh beth mh vh (aim n d) d

def KOut2 (m : Fin 4096) (d : Fin 512) : EReal :=
  head (kpre (conv (det m) Wp bp) (nmat (fun n => conv (aim n) Wt bt) (fun n => conv (aim n) Wg bg)))
    Wh bh gh beth mh vh (det m d) d

def ROut2 (m : Fin 4096) (d : Fin 512) : EReal :=
  head (rpre2 (conv (det m) Wp bp) (fun n => conv (aim n) Wt bt) (fun n => conv (aim n) Wg bg))
    Wh bh gh beth mh vh (det m d) d

def Fin2 {A B : Type} (x : A → B → EReal) : Prop := ∀ a b, ∃ r : ℝ, x a b = (r : EReal)
def Fin1 {A : Type} (x : A → EReal) : Prop := ∀ a, ∃ r : ℝ, x a = (r : EReal)

end

def m2 {a b : Nat} (x : (⟨2, ![a, b]⟩ : Shape).Idx → EReal) : Fin a → Fin b → EReal := fun i j => x (ix2 i j)

def m3 {a b c : Nat} (x : (⟨3, ![a, b, c]⟩ : Shape).Idx → EReal) : Fin a → Fin b → Fin c → EReal := fun i j k => x (ix3 i j k)

def r1 {b : Nat} (x : (⟨2, ![1, b]⟩ : Shape).Idx → EReal) : Fin b → EReal := fun j => x (ix2 0 j)

def v1 {b : Nat} (x : (⟨1, ![b]⟩ : Shape).Idx → EReal) : Fin b → EReal := fun j => x (ix1 j)

def pos32 (n : Fin 1024) : Fin 32 × Fin 32 := (⟨n.val / 32, by omega⟩, ⟨n.val % 32, by omega⟩)

def pos64 (n : Fin 4096) : Fin 64 × Fin 64 := (⟨n.val / 64, by omega⟩, ⟨n.val % 64, by omega⟩)

def npos32 (h w : Fin 32) : Fin 1024 := ⟨32 * h.val + w.val, by omega⟩
def npos64 (h w : Fin 64) : Fin 4096 := ⟨64 * h.val + w.val, by omega⟩
theorem pos32_npos32 (h w : Fin 32) : pos32 (npos32 h w) = (h, w) := by
  unfold pos32 npos32; ext <;> simp <;> omega
theorem pos64_npos64 (h w : Fin 64) : pos64 (npos64 h w) = (h, w) := by
  unfold pos64 npos64; ext <;> simp <;> omega

def aimS (x : (⟨4, ![8, 32, 32, 512]⟩ : Shape).Idx → EReal) (b : Fin 8) : Fin 1024 → Fin 512 → EReal :=
  fun n k => x (ix4 b (pos32 n).1 (pos32 n).2 k)

def detS (x : (⟨4, ![8, 64, 64, 512]⟩ : Shape).Idx → EReal) (b : Fin 8) : Fin 4096 → Fin 512 → EReal :=
  fun n k => x (ix4 b (pos64 n).1 (pos64 n).2 k)

end Cert.Spec

end
-- ==== Proof.KI.Args.lean ====
import proofs.«154970_j43301860278975_1_alg».proof.Proof.Gen.KernelIdeal
import proofs.«154970_j43301860278975_1_alg».proof.Proof.Spec

noncomputable section

namespace Cert.KernelIdeal.Reg

open Cert.KernelIdeal Cert.KernelIdeal.Gen
open Idealize.ShloMosaic Idealize.ShloMosaic.TcCoe Idealize.ShloMosaic.ValueIdx
open Cert.Spec
open scoped BigOperators

variable (m : (ℓ : Loc nD τ sig) → Buf (Elt Ideal) ℓ) (c : Dev nD)

abbrev a0 : S8x64x64x512.Idx → EReal := m ((c : Thread nD τ).loc main_arg0)
abbrev a1 : S8x32x32x512.Idx → EReal := m ((c : Thread nD τ).loc main_arg1)
abbrev a2 : S512x256.Idx → EReal := m ((c : Thread nD τ).loc main_arg2)
abbrev a3 : S256.Idx → EReal := m ((c : Thread nD τ).loc main_arg3)
abbrev a4 : S512x256.Idx → EReal := m ((c : Thread nD τ).loc main_arg4)
abbrev a5 : S256.Idx → EReal := m ((c : Thread nD τ).loc main_arg5)
abbrev a6 : S512x256.Idx → EReal := m ((c : Thread nD τ).loc main_arg6)
abbrev a7 : S256.Idx → EReal := m ((c : Thread nD τ).loc main_arg7)
abbrev a8 : S256x512.Idx → EReal := m ((c : Thread nD τ).loc main_arg8)
abbrev a9 : S512.Idx → EReal := m ((c : Thread nD τ).loc main_arg9)
abbrev a10 : S512.Idx → EReal := m ((c : Thread nD τ).loc main_arg10)
abbrev a11 : S512.Idx → EReal := m ((c : Thread nD τ).loc main_arg11)
abbrev a12 : S512.Idx → EReal := m ((c : Thread nD τ).loc main_arg12)
abbrev a13 : S512.Idx → EReal := m ((c : Thread nD τ).loc main_arg13)
abbrev a14 : S256x512.Idx → EReal := m ((c : Thread nD τ).loc main_arg14)
abbrev a15 : S512.Idx → EReal := m ((c : Thread nD τ).loc main_arg15)
abbrev a16 : S512.Idx → EReal := m ((c : Thread nD τ).loc main_arg16)
abbrev a17 : S512.Idx → EReal := m ((c : Thread nD τ).loc main_arg17)
abbrev a18 : S512.Idx → EReal := m ((c : Thread nD τ).loc main_arg18)
abbrev a19 : S512.Idx → EReal := m ((c : Thread nD τ).loc main_arg19)

end Cert.KernelIdeal.Reg

end
-- ==== Proof.KI.Views.lean ====
import proofs.«154970_j43301860278975_1_alg».proof.Proof.Gen.KernelIdeal
import proofs.«154970_j43301860278975_1_alg».proof.Proof.Spec
import Idealize.ShloMosaic.Lib.Pipeline.Value
import Idealize.ShloMosaic.Lib.StackMember

noncomputable section

namespace Cert.KernelIdeal.Reg

open Cert.KernelIdeal Cert.KernelIdeal.Gen
open Idealize.ShloMosaic Idealize.ShloMosaic.TcCoe Idealize.ShloMosaic.ValueIdx
open Idealize.ShloMosaic.Pipeline (Dat)
open Cert.Spec
open scoped BigOperators

open Idealize.ShloMosaic.StackMember in
-- A plain [m, k] by [k, n] product into the zero accumulator, read at (p, q), sums over the shared coordinate.
theorem mm_plain {m k n : ℕ} {φ₁ φ₂ : FTy} (D : DotDims ⟨2, ![m, k]⟩ ⟨2, ![k, n]⟩ ⟨2, ![m, n]⟩) (hD : D = .plain m k n)
    (a : FVec Ideal ⟨2, ![m, k]⟩ φ₁) (b : FVec Ideal ⟨2, ![k, n]⟩ φ₂) (p : Fin m) (q : Fin n) :
    matmul D none a b (constant _ .f32 0x00000000#32) (ix2 p q) = ∑ j : Fin k, a (ix2 p j) * b (ix2 j q) := by
  rw [hD, matmul_zero_eq_dotGeneral, dotGeneral_plain_apply]

variable (V : (c : Dev nD) → (b : Ref sig .tc) → Buf (Elt Ideal) ((c : Thread nD τ).loc b)) (c : Dev nD)

abbrev detR : S8x4096x512.Idx → EReal := V c main_v0
abbrev aimR : S8x1024x512.Idx → EReal := V c main_v1
abbrev WgA : S512x256.Idx → EReal := V c main_arg2
abbrev WtA : S512x256.Idx → EReal := V c main_arg4
abbrev WpA : S512x256.Idx → EReal := V c main_arg6
abbrev bgR : S1x256.Idx → EReal := V c main_v2
abbrev btR : S1x256.Idx → EReal := V c main_v3
abbrev bpR : S1x256.Idx → EReal := V c main_v4
abbrev WwA : S256x512.Idx → EReal := V c main_arg8
abbrev bwR : S1x512.Idx → EReal := V c main_v5
abbrev gwR : S1x512.Idx → EReal := V c main_v6
abbrev betwR : S1x512.Idx → EReal := V c main_v7
abbrev mwR : S1x512.Idx → EReal := V c main_v8
abbrev vwR : S1x512.Idx → EReal := V c main_v9
abbrev WqA : S256x512.Idx → EReal := V c main_arg14
abbrev bqR : S1x512.Idx → EReal := V c main_v10
abbrev gqR : S1x512.Idx → EReal := V c main_v11
abbrev betqR : S1x512.Idx → EReal := V c main_v12
abbrev mqR : S1x512.Idx → EReal := V c main_v13
abbrev vqR : S1x512.Idx → EReal := V c main_v14
abbrev thetaA : S8x1024x256.Idx → EReal := V c main_v15_0
abbrev NA : S8x256x256.Idx → EReal := V c main_v15_1
abbrev MA : S8x256x256.Idx → EReal := V c main_v16

end Cert.KernelIdeal.Reg

end
-- ==== Proof.KI.R0Val.lean ====
import proofs.«154970_j43301860278975_1_alg».proof.Proof.KI.R0Body
import proofs.«154970_j43301860278975_1_alg».proof.Proof.KI.Views
import Idealize.ShloMosaic.PureOps.Ideal.Laws
import Idealize.ShloMosaic.Lib.ValueLayout

noncomputable section

namespace Cert.KernelIdeal.Reg

open Cert.KernelIdeal Cert.KernelIdeal.Gen
open Idealize.ShloMosaic Idealize.ShloMosaic.TcCoe Idealize.ShloMosaic.ValueIdx
open Idealize.ShloMosaic.Pipeline (Dat)
open Cert.Spec
open scoped BigOperators

/-- Entry (n, j) of a projection is the 1x1 convolution of row n of the block. -/
theorem r0_pay2_apply (x0 : Vec Ideal S1x1024x512 .f32) (x3 : Vec Ideal S512x256 .f32) (x6 : Vec Ideal S1x256 .f32)
    (n : Fin 1024) (j : Fin 256) :
    k0_pay2 (F := Ideal) x0 x3 x6 (ix2 n j) = conv (m3 x0 (0 : Fin 1) n) (m2 x3) (r1 x6) j := by
  unfold k0_pay2 k0_pay1 conv
  refine congrArg₂ (· + ·) ((mm_plain _ rfl _ _ n j).trans (Finset.sum_congr rfl fun k _ => ?_)) ?_
  · exact congrArg (· * x3 (ix2 k j)) (shapeCast_1ab_ab_apply x0 shapeCasts_S1x1024x512_S1024x512 n k)
  · exact (broadcastTo_1b_ab_apply _ broadcasts_S1x256_S1024x256 n j).trans (congrFun (shapeCast_self x6 shapeCasts_S1x256_S1x256) _)

/-- Entry (i, j) of the scaled product of the block's two projections. -/
theorem r0_pay4_apply (x0 : Vec Ideal S1x1024x512 .f32) (x2 x3 : Vec Ideal S512x256 .f32) (x4 x6 : Vec Ideal S1x256 .f32)
    (u : Fin 1) (i j : Fin 256) :
    k0_pay4 (F := Ideal) x0 x2 x3 x4 x6 (ix3 u i j)
      = nmat (fun n => conv (m3 x0 (0 : Fin 1) n) (m2 x3) (r1 x6)) (fun n => conv (m3 x0 (0 : Fin 1) n) (m2 x2) (r1 x4)) i j := by
  unfold k0_pay4 nmat
  refine (shapeCast_ab_1ab_apply _ shapeCasts_S256x256_S1x256x256 u i j).trans (congrArg (· * c1024) ?_)
  refine (mm_plain _ rfl _ _ i j).trans (Finset.sum_congr rfl fun n _ => ?_)
  exact congrArg₂ (· * ·) ((transpose_ix2_apply _ transposes_S1024x256_p1_0_S256x1024 i n).trans (r0_pay2_apply x0 x3 x6 n i))
    (r0_pay2_apply x0 x2 x4 n j)

theorem r0_idx_facts : ∀ t : Fin cfg0.N,
    (win0_0.index t (0 : Fin 3) = t.val ∧ win0_0.index t (1 : Fin 3) = 0 ∧ win0_0.index t (2 : Fin 3) = 0)
    ∧ ((∀ a, win0_1.index t a = 0) ∧ (∀ a, win0_2.index t a = 0) ∧ (∀ a, win0_3.index t a = 0) ∧ (∀ a, win0_4.index t a = 0))
    ∧ (win0_5.index t (0 : Fin 3) = t.val ∧ win0_5.index t (1 : Fin 3) = 0 ∧ win0_5.index t (2 : Fin 3) = 0)
    ∧ win0_6.index t (0 : Fin 3) = t.val ∧ win0_6.index t (1 : Fin 3) = 0 ∧ win0_6.index t (2 : Fin 3) = 0 :=
  (by decide +kernel : ∀ t : Fin grid0.N, _)

variable (V : (c : Dev nD) → (b : Ref sig .tc) → Buf (Elt Ideal) ((c : Thread nD τ).loc b)) (c : Dev nD)

/-- The rows of the aim block of point t are the rows of batch t. -/
theorem r0_aim_blk (t : Fin cfg0.N) :
    m3 (iblk0 (F := Ideal) V c 0 t : Vec Ideal S1x1024x512 .f32) (0 : Fin 1) = m3 (aimR V c) (t.cast N_0) := by
  obtain ⟨⟨e0, e1, e2⟩, -⟩ := r0_idx_facts t
  funext n k
  show V c main_v1 _ = V c main_v1 _
  congr 1
  funext a
  apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 512 + 1 * k.val = k.val; omega

/-- With offset zero on every axis an entry of the block is the array's entry at the same index. -/
theorem r0_wg_blk (t : Fin cfg0.N) : (iblk0 (F := Ideal) V c 1 t : Vec Ideal S512x256 .f32) = WgA V c := by
  funext y
  show V c main_arg2 _ = V c main_arg2 y
  exact congrArg _ (funext fun a => Fin.ext (win0_1.rect_emb_val_of_index_zero t a ((r0_idx_facts t).2.1.1 a) y))
theorem r0_bg_blk (t : Fin cfg0.N) : (iblk0 (F := Ideal) V c 2 t : Vec Ideal S1x256 .f32) = bgR V c := by
  funext y
  show V c main_v2 _ = V c main_v2 y
  exact congrArg _ (funext fun a => Fin.ext (win0_2.rect_emb_val_of_index_zero t a ((r0_idx_facts t).2.1.2.1 a) y))
theorem r0_wt_blk (t : Fin cfg0.N) : (iblk0 (F := Ideal) V c 3 t : Vec Ideal S512x256 .f32) = WtA V c := by
  funext y
  show V c main_arg4 _ = V c main_arg4 y
  exact congrArg _ (funext fun a => Fin.ext (win0_3.rect_emb_val_of_index_zero t a ((r0_idx_facts t).2.1.2.2.1 a) y))
theorem r0_bt_blk (t : Fin cfg0.N) : (iblk0 (F := Ideal) V c 4 t : Vec Ideal S1x256 .f32) = btR V c := by
  funext y
  show V c main_v3 _ = V c main_v3 y
  exact congrArg _ (funext fun a => Fin.ext (win0_4.rect_emb_val_of_index_zero t a ((r0_idx_facts t).2.1.2.2.2 a) y))

/-- Both outputs as functions of aim, the weights and the biases. -/
def r0_thetaG : S8x1024x256.Idx → EReal :=
  fun i => conv (m3 (aimR V c) (i 0) (i 1)) (m2 (WtA V c)) (r1 (btR V c)) (i 2)
def r0_nG : S8x256x256.Idx → EReal :=
  fun i => nmat (fun n => conv (m3 (aimR V c) (i 0) n) (m2 (WtA V c)) (r1 (btR V c)))
    (fun n => conv (m3 (aimR V c) (i 0) n) (m2 (WgA V c)) (r1 (bgR V c))) (i 1) (i 2)

/-- Entry (u, n, j) of the block of point t is entry (t, n, j) of the array: read back by the write-back lemma, inverted by the cover. -/
theorem r0_emb5 (t : Fin cfg0.N) (b : Fin 8) (hb : b.val = t.val) (u : Fin 1) (n : Fin 1024) (j : Fin 256) :
    ((cfg0.win 5).blk t).view.emb (ix3 u n j) = ix3 b n j := by
  obtain ⟨-, -, ⟨e0, e1, e2⟩, -⟩ := r0_idx_facts t
  funext a; apply Fin.ext
  match a with
  | ⟨0, _⟩ => show win0_5.index t (0 : Fin 3) * 1 + 1 * u.val = b.val; omega
  | ⟨1, _⟩ => show win0_5.index t (1 : Fin 3) * 1024 + 1 * n.val = n.val; omega
  | ⟨2, _⟩ => show win0_5.index t (2 : Fin 3) * 256 + 1 * j.val = j.val; omega
theorem r0_emb6 (t : Fin cfg0.N) (b : Fin 8) (hb : b.val = t.val) (u : Fin 1) (n : Fin 256) (j : Fin 256) :
    ((cfg0.win 6).blk t).view.emb (ix3 u n j) = ix3 b n j := by
  obtain ⟨-, -, -, e0, e1, e2⟩ := r0_idx_facts t
  funext a; apply Fin.ext
  match a with
  | ⟨0, _⟩ => show win0_6.index t (0 : Fin 3) * 1 + 1 * u.val = b.val; omega
  | ⟨1, _⟩ => show win0_6.index t (1 : Fin 3) * 256 + 1 * n.val = n.val; omega
  | ⟨2, _⟩ => show win0_6.index t (2 : Fin 3) * 256 + 1 * j.val = j.val; omega

/-- What point t writes back is batch t of the output's function. -/
theorem r0_flushed5 (t : Fin cfg0.N) :
    (dat0 (F := Ideal) V c).flushed 5 t = ((cfg0.win 5).blk t).view.read (Elt Ideal) (r0_thetaG V c) := by
  show (cfg0.win 5).cut (cfg0.grid.coords t) ((dat0 (F := Ideal) V c).after 5 t) = _
  rw [after0_5]
  funext y
  obtain ⟨u, n, j, rfl⟩ : ∃ (u : Fin 1) (n : Fin 1024) (j : Fin 256), y = ix3 u n j := ⟨y 0, y 1, y 2, eq_ix3 y⟩
  rw [View.read_apply, r0_emb5 t (t.cast N_0) rfl]
  show k0_pay3 (F := Ideal) (iblk0 V c 0 t) (iblk0 V c 3 t) (iblk0 V c 4 t) (ix3 u n j) = r0_thetaG V c _
  unfold k0_pay3
  refine (shapeCast_ab_1ab_apply _ shapeCasts_S1024x256_S1x1024x256 u n j).trans ((r0_pay2_apply _ _ _ n j).trans ?_)
  rw [r0_aim_blk, r0_wt_blk, r0_bt_blk]
  rfl
theorem r0_flushed6 (t : Fin cfg0.N) :
    (dat0 (F := Ideal) V c).flushed 6 t = ((cfg0.win 6).blk t).view.read (Elt Ideal) (r0_nG V c) := by
  show (cfg0.win 6).cut (cfg0.grid.coords t) ((dat0 (F := Ideal) V c).after 6 t) = _
  rw [after0_6]
  funext y
  obtain ⟨u, i, j, rfl⟩ : ∃ (u : Fin 1) (i : Fin 256) (j : Fin 256), y = ix3 u i j := ⟨y 0, y 1, y 2, eq_ix3 y⟩
  rw [View.read_apply, r0_emb6 t (t.cast N_0) rfl]
  show k0_pay4 (F := Ideal) (iblk0 V c 0 t) (iblk0 V c 1 t) (iblk0 V c 3 t) (iblk0 V c 2 t) (iblk0 V c 4 t) (ix3 u i j) = r0_nG V c _
  refine (r0_pay4_apply _ _ _ _ _ u i j).trans ?_
  rw [r0_aim_blk, r0_wg_blk, r0_bg_blk, r0_wt_blk, r0_bt_blk]
  rfl

/-- Every entry of an output lies in the block of the point of its batch. -/
theorem r0_cover5 (i : S8x1024x256.Idx) :
    ∃ t : Fin cfg0.N, (cfg0.win 5).flush t = true ∧ i ∈ ((cfg0.win 5).blk t).view.set := by
  obtain ⟨t, ht⟩ : ∃ t : Fin cfg0.N, t.val = (i 0).val := ⟨(i 0).cast N_0.symm, rfl⟩
  refine ⟨t, flush0_5 t, ?_⟩
  rw [(eq_ix3 i).trans (r0_emb5 t (i 0) ht.symm 0 (i 1) (i 2)).symm]
  exact View.emb_mem_set _ _
theorem r0_cover6 (i : S8x256x256.Idx) :
    ∃ t : Fin cfg0.N, (cfg0.win 6).flush t = true ∧ i ∈ ((cfg0.win 6).blk t).view.set := by
  obtain ⟨t, ht⟩ : ∃ t : Fin cfg0.N, t.val = (i 0).val := ⟨(i 0).cast N_0.symm, rfl⟩
  refine ⟨t, flush0_6 t, ?_⟩
  rw [(eq_ix3 i).trans (r0_emb6 t (i 0) ht.symm 0 (i 1) (i 2)).symm]
  exact View.emb_mem_set _ _

theorem val0_theta (b : Fin 8) (n : Fin 1024) (j : Fin 256) :
    m3 ((dat0 (F := Ideal) V c).arrAt 5 cfg0.N : S8x1024x256.Idx → EReal) b n j
      = conv (m3 (aimR V c) b n) (m2 (WtA V c)) (r1 (btR V c)) j := by
  rw [(dat0 (F := Ideal) V c).arrAt_eq_of_cover 5 (r0_thetaG V c) (fun t _ => r0_flushed5 V c t) (r0_cover5)]
  rfl

theorem val0_N (b : Fin 8) (i j : Fin 256) :
    m3 ((dat0 (F := Ideal) V c).arrAt 6 cfg0.N : S8x256x256.Idx → EReal) b i j
      = nmat (fun n => conv (m3 (aimR V c) b n) (m2 (WtA V c)) (r1 (btR V c)))
          (fun n => conv (m3 (aimR V c) b n) (m2 (WgA V c)) (r1 (bgR V c))) i j := by
  rw [(dat0 (F := Ideal) V c).arrAt_eq_of_cover 6 (r0_nG V c) (fun t _ => r0_flushed6 V c t) (r0_cover6)]
  rfl

end Cert.KernelIdeal.Reg

end
-- ==== Proof.KI.R1Val.lean ====
import proofs.«154970_j43301860278975_1_alg».proof.Proof.KI.R1Body
import proofs.«154970_j43301860278975_1_alg».proof.Proof.KI.Views
import Idealize.ShloMosaic.PureOps.Ideal.Laws
import Idealize.ShloMosaic.Lib.ValueLayout

noncomputable section

namespace Cert.KernelIdeal.Reg.R1V

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec
open scoped BigOperators

def trow (k : Fin 4) (r : Fin 1024) : Fin 4096 := ⟨1024 * k.val + r.val, by omega⟩

/-- The 4096 rows are four tiles of 1024: row 1024 k + r is row r of tile k. -/
theorem sum_tiles (g : Fin 4096 → EReal) :
    ∑ n : Fin 4096, g n = ∑ k : Fin 4, ∑ r : Fin 1024, g (trow k r) := by
  rw [← Fintype.sum_prod_type']
  refine (Fintype.sum_equiv (finProdFinEquiv (m := 4) (n := 1024)) (fun p => g (trow p.1 p.2)) g fun p => ?_).symm
  refine congrArg g (Fin.ext ?_)
  show 1024 * p.1.val + p.2.val = p.2.val + 1024 * p.1.val
  omega

variable (V : (c : Dev nD) → (b : Ref sig .tc) → Buf (Elt Ideal) ((c : Thread nD τ).loc b)) (c : Dev nD)

theorem idx_det : ∀ t : Fin cfg1.N, win1_0.index t (0 : Fin 3) = t.val / 4 ∧ win1_0.index t (1 : Fin 3) = t.val % 4
    ∧ win1_0.index t (2 : Fin 3) = 0 :=
  (by decide +kernel : ∀ t : Fin grid1.N, _)
theorem idx_whole : ∀ t : Fin cfg1.N, (∀ a, win1_1.index t a = 0) ∧ (∀ a, win1_2.index t a = 0)
    ∧ (∀ a, win1_3.index t a = 0) ∧ (∀ a, win1_4.index t a = 0) :=
  (by decide +kernel : ∀ t : Fin grid1.N, _)
theorem idx_M : ∀ t : Fin cfg1.N, win1_5.index t (0 : Fin 3) = t.val / 4 ∧ win1_5.index t (1 : Fin 3) = 0
    ∧ win1_5.index t (2 : Fin 3) = 0 :=
  (by decide +kernel : ∀ t : Fin grid1.N, _)

theorem det_row (t : Fin cfg1.N) (b : Fin 8) (k : Fin 4) (ht : t.val = 4 * b.val + k.val) (r : Fin 1024) (ch : Fin 512) :
    (iblk1 (F := Ideal) V c 0 t : Vec Ideal S1x1024x512 .f32) (ix3 (0 : Fin 1) r ch) = m3 (detR V c) b (trow k r) ch := by
  obtain ⟨e0, e1, e2⟩ := idx_det t
  show V c main_v0 _ = V c main_v0 _
  congr 1
  funext a; apply Fin.ext
  match a with
  | ⟨0, _⟩ => show win1_0.index t (0 : Fin 3) * 1 + 1 * 0 = b.val; omega
  | ⟨1, _⟩ => show win1_0.index t (1 : Fin 3) * 1024 + 1 * r.val = 1024 * k.val + r.val; omega
  | ⟨2, _⟩ => show win1_0.index t (2 : Fin 3) * 512 + 1 * ch.val = ch.val; omega

/-- With offset zero on every axis an entry of the block is the array's entry at the same index. -/
theorem blk_Wg (t : Fin cfg1.N) : (iblk1 (F := Ideal) V c 1 t : Vec Ideal S512x256 .f32) = WgA V c := by
  funext y
  show V c main_arg2 _ = V c main_arg2 y
  exact congrArg _ (funext fun a => Fin.ext (win1_1.rect_emb_val_of_index_zero t a ((idx_whole t).1 a) y))
theorem blk_bg (t : Fin cfg1.N) : (iblk1 (F := Ideal) V c 2 t : Vec Ideal S1x256 .f32) = bgR V c := by
  funext y
  show V c main_v2 _ = V c main_v2 y
  exact congrArg _ (funext fun a => Fin.ext (win1_2.rect_emb_val_of_index_zero t a ((idx_whole t).2.1 a) y))
theorem blk_Wp (t : Fin cfg1.N) : (iblk1 (F := Ideal) V c 3 t : Vec Ideal S512x256 .f32) = WpA V c := by
  funext y
  show V c main_arg6 _ = V c main_arg6 y
  exact congrArg _ (funext fun a => Fin.ext (win1_3.rect_emb_val_of_index_zero t a ((idx_whole t).2.2.1 a) y))
theorem blk_bp (t : Fin cfg1.N) : (iblk1 (F := Ideal) V c 4 t : Vec Ideal S1x256 .f32) = bpR V c := by
  funext y
  show V c main_v4 _ = V c main_v4 y
  exact congrArg _ (funext fun a => Fin.ext (win1_4.rect_emb_val_of_index_zero t a ((idx_whole t).2.2.2 a) y))

abbrev phiF (b : Fin 8) (n : Fin 4096) : Fin 256 → EReal := conv (m3 (detR V c) b n) (m2 (WpA V c)) (r1 (bpR V c))
abbrev dF (b : Fin 8) (n : Fin 4096) : Fin 256 → EReal := conv (m3 (detR V c) b n) (m2 (WgA V c)) (r1 (bgR V c))

theorem pay1_apply (i j : Fin 256) : k1_pay1 (F := Ideal) (ix2 i j) = 0 := by
  unfold k1_pay1
  rw [shapeCast_self, broadcast_apply]
  exact Ideal.ofBits_zero_f32

theorem pay3_apply (x : Vec Ideal S256x256 .f32) (u : Fin 1) (i j : Fin 256) :
    k1_pay3 (F := Ideal) x (ix3 u i j) = x (ix2 i j) * c4096 := by
  unfold k1_pay3
  rw [shapeCast_ab_1ab_apply, mulf_apply, broadcast_apply]
  rfl

/-- What one point adds at (i, j): the products of its tile's rows, each row's two projections read off the arrays. -/
theorem tile_sum (t : Fin cfg1.N) (b : Fin 8) (k : Fin 4) (ht : t.val = 4 * b.val + k.val)
    (prev : Vec Ideal S256x256 .f32) (i j : Fin 256) :
    k1_pay2 (F := Ideal) (iblk1 V c 0 t) (iblk1 V c 1 t) (iblk1 V c 3 t) (iblk1 V c 2 t) (iblk1 V c 4 t) prev (ix2 i j)
      = prev (ix2 i j) + ∑ r : Fin 1024, phiF V c b (trow k r) i * dF V c b (trow k r) j := by
  unfold k1_pay2
  rw [blk_Wg V c t, blk_Wp V c t, blk_bg V c t, blk_bp V c t, shapeCast_self, addf_apply]
  erw [mm_plain _ rfl]
  refine congrArg (prev (ix2 i j) + ·) (Finset.sum_congr rfl fun r _ => ?_)
  rw [transpose_ix2_apply, truncf_apply, truncf_apply, addf_apply, addf_apply]
  erw [mm_plain _ rfl, mm_plain _ rfl]
  rw [broadcastTo_1b_ab_apply, broadcastTo_1b_ab_apply, shapeCast_self, shapeCast_self]
  simp only [truncf_apply, shapeCast_1ab_ab_apply, det_row V c t b k ht]
  rfl

theorem acc_first (n : ℕ) (h : n < cfg1.N) (b : Fin 8) (hn : n = 4 * b.val + 0) (i j : Fin 256) :
    accAt1 (F := Ideal) V c n h (ix2 i j) = 0 + ∑ r : Fin 1024, phiF V c b (trow 0 r) i * dF V c b (trow 0 r) j := by
  cases n with
  | zero =>
    rw [accAt1, tile_sum V c ⟨0, h⟩ b 0 hn, pay1_apply]
  | succ n =>
    rw [accAt1, if_pos (by omega), tile_sum V c ⟨n + 1, h⟩ b 0 hn, pay1_apply]
theorem acc_next (n : ℕ) (h : n + 1 < cfg1.N) (b : Fin 8) (k : Fin 4) (hn : n + 1 = 4 * b.val + k.val) (hk : k.val ≠ 0)
    (i j : Fin 256) :
    accAt1 (F := Ideal) V c (n + 1) h (ix2 i j) = accAt1 (F := Ideal) V c n (Nat.lt_of_succ_lt h) (ix2 i j)
      + ∑ r : Fin 1024, phiF V c b (trow k r) i * dF V c b (trow k r) j := by
  rw [accAt1, if_neg (by omega), tile_sum V c ⟨n + 1, h⟩ b k hn]

/-- Four tile sums added to zero, one tile after the other, are the sum over all rows. -/
theorem acc_last (n : ℕ) (h : n < cfg1.N) (b : Fin 8) (hn : n = 4 * b.val + 3) (i j : Fin 256) :
    accAt1 (F := Ideal) V c n h (ix2 i j) = ∑ m : Fin 4096, phiF V c b m i * dF V c b m j := by
  subst hn
  rw [acc_next V c (4 * b.val + 2) h b 3 rfl (by decide), acc_next V c (4 * b.val + 1) _ b 2 rfl (by decide),
    acc_next V c (4 * b.val) _ b 1 rfl (by decide), acc_first V c (4 * b.val) _ b rfl,
    sum_tiles, Fin.sum_univ_four, zero_add]

def MG : S8x256x256.Idx → EReal := fun idx => mmat (phiF V c (idx 0)) (dF V c (idx 0)) (idx 1) (idx 2)

/-- Entry (u, i, j) of the block of point t is entry (t / 4, i, j) of the array: read back by the write-back lemma, inverted by the cover. -/
theorem emb_M (t : Fin cfg1.N) (b : Fin 8) (hb : b.val = t.val / 4) (u : Fin 1) (i j : Fin 256) :
    ((cfg1.win 5).blk t).view.emb (ix3 u i j) = ix3 b i j := by
  obtain ⟨e0, e1, e2⟩ := idx_M t
  funext a; apply Fin.ext
  match a with
  | ⟨0, _⟩ => show win1_5.index t (0 : Fin 3) * 1 + 1 * u.val = b.val; omega
  | ⟨1, _⟩ => show win1_5.index t (1 : Fin 3) * 256 + 1 * i.val = i.val; omega
  | ⟨2, _⟩ => show win1_5.index t (2 : Fin 3) * 256 + 1 * j.val = j.val; omega

theorem flushed_M (t : Fin cfg1.N) (hf : (cfg1.win 5).flush t = true) :
    (dat1 (F := Ideal) V c).flushed 5 t = ((cfg1.win 5).blk t).view.read (Elt Ideal) (MG V c) := by
  have h3 : t.val % 4 = 3 := (flush1_5 t).mp hf
  have hlt : t.val < 32 := Nat.lt_of_lt_of_eq t.isLt N_1
  show (cfg1.win 5).cut (grid1.coords t) ((dat1 (F := Ideal) V c).after 5 t) = _
  rw [after1_5 V c t h3]
  funext y
  obtain ⟨u, i, j, rfl⟩ : ∃ (u : Fin 1) (i j : Fin 256), y = ix3 u i j := ⟨y 0, y 1, y 2, eq_ix3 y⟩
  rw [View.read_apply, emb_M t ⟨t.val / 4, by omega⟩ rfl]
  show k1_pay3 (F := Ideal) (accAt1 (F := Ideal) V c t.val t.isLt) (ix3 u i j) = MG V c _
  rw [pay3_apply, acc_last V c t.val t.isLt ⟨t.val / 4, by omega⟩ (by show t.val = 4 * (t.val / 4) + 3; omega) i j]
  rfl

theorem cover_M (i : S8x256x256.Idx) :
    ∃ t : Fin cfg1.N, (cfg1.win 5).flush t = true ∧ i ∈ ((cfg1.win 5).blk t).view.set := by
  have h0 : (i 0).val < 8 := (i 0).isLt
  have hN : cfg1.N = 32 := N_1
  obtain ⟨t, ht⟩ : ∃ t : Fin cfg1.N, t.val = 4 * (i 0).val + 3 := ⟨⟨4 * (i 0).val + 3, by rw [hN]; omega⟩, rfl⟩
  refine ⟨t, (flush1_5 t).mpr (by omega), ?_⟩
  rw [(eq_ix3 i).trans (emb_M t (i 0) (by omega) 0 (i 1) (i 2)).symm]
  exact View.emb_mem_set _ _

theorem _root_.Cert.KernelIdeal.Reg.val1_M (b : Fin 8) (i j : Fin 256) :
    m3 ((dat1 (F := Ideal) V c).arrAt 5 cfg1.N : S8x256x256.Idx → EReal) b i j
      = mmat (fun n => conv (m3 (detR V c) b n) (m2 (WpA V c)) (r1 (bpR V c)))
          (fun n => conv (m3 (detR V c) b n) (m2 (WgA V c)) (r1 (bgR V c))) i j := by
  rw [(dat1 (F := Ideal) V c).arrAt_eq_of_cover 5 (MG V c) (flushed_M V c) cover_M]
  rfl

end Cert.KernelIdeal.Reg.R1V

end
-- ==== Proof.KI.R2Val.lean ====
import proofs.«154970_j43301860278975_1_alg».proof.Proof.KI.R2Body
import proofs.«154970_j43301860278975_1_alg».proof.Proof.KI.Views
import Idealize.ShloMosaic.Lib.ValueLayout
import Idealize.ShloMosaic.Lib.StackMember

noncomputable section

namespace Cert.KernelIdeal.Reg

open Cert.KernelIdeal Cert.KernelIdeal.Gen
open Idealize.ShloMosaic Idealize.ShloMosaic.TcCoe Idealize.ShloMosaic.ValueIdx Idealize.ShloMosaic.StackMember
open Idealize.ShloMosaic.Pipeline (Dat)
open Cert.Spec
open scoped BigOperators

/-- The stored block at row n, channel d, from the nine loaded blocks: the head of theta's row through M, plus aim's entry. -/
theorem r2_pay_apply (x0 : Vec Ideal S1x1024x256 .f32) (x1 : Vec Ideal S1x256x256 .f32) (x2 : Vec Ideal S1x1024x512 .f32)
    (x3 : Vec Ideal S256x512 .f32) (x4 x5 x6 x7 x8 : Vec Ideal S1x512 .f32) (u : Fin 1) (n : Fin 1024) (d : Fin 512) :
    out2_9 x0 x1 x2 x3 x4 x5 x6 x7 x8 (ix3 u n d)
      = head (kpre (fun k => x0 (ix3 0 n k)) (fun k j => x1 (ix3 0 k j))) (m2 x3) (r1 x4) (r1 x5) (r1 x6) (r1 x7) (r1 x8)
          (x2 (ix3 0 n d)) d := by
  unfold out2_9 k2_pay1 k2_pay2 k2_pay3 k2_pay4
  dsimp only
  rw [shapeCast_ab_1ab_apply]
  simp only [addf_apply, mulf_apply, subf_apply, broadcastTo_1b_ab_apply, shapeCast_self, truncf_apply, shapeCast_1ab_ab_apply,
    mm_plain dot_S1024x256_S256x512_S1024x512_1_0_0_1_n_n rfl, mm_plain dot_S1024x256_S256x256_S1024x256_1_0_0_1_n_n rfl]
  rfl

variable (V : (c : Dev nD) → (b : Ref sig .tc) → Buf (Elt Ideal) ((c : Thread nD τ).loc b)) (c : Dev nD)

def r2_G : S8x1024x512.Idx → EReal := fun i =>
  head (kpre (m3 (thetaA V c) (i 0) (i 1)) (m3 (MA V c) (i 0))) (m2 (WwA V c)) (r1 (bwR V c)) (r1 (gwR V c)) (r1 (betwR V c))
    (r1 (mwR V c)) (r1 (vwR V c)) (m3 (aimR V c) (i 0) (i 1) (i 2)) (i 2)

theorem r2_idx : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_9.index t (0 : Fin 3) = t.val ∧ win2_9.index t (1 : Fin 3) = 0 ∧ win2_9.index t (2 : Fin 3) = 0)
    ∧ (∀ a, win2_3.index t a = 0) ∧ (∀ a, win2_4.index t a = 0) ∧ (∀ a, win2_5.index t a = 0)
    ∧ (∀ a, win2_6.index t a = 0) ∧ (∀ a, win2_7.index t a = 0) ∧ ∀ a, win2_8.index t a = 0 :=
  (by decide +kernel : ∀ t : Fin grid2.N, _)

theorem r2_blk0 (t : Fin cfg2.N) : iblk2 V c 0 t = fun y => thetaA V c (ix3 (t.cast N_2) (y 1) (y 2)) := by
  obtain ⟨⟨e0, e1, e2⟩, -⟩ := r2_idx t
  funext y
  have : (y 0).val < 1 := (y 0).isLt
  show V c main_v15_0 (((cfg2.win 0).blk t).view.emb y) = _
  refine congrArg _ (funext fun a => Fin.ext ?_)
  match a with
  | ⟨0, _⟩ => show win2_0.index t (0 : Fin 3) * 1 + 1 * (y 0).val = t.val; omega
  | ⟨1, _⟩ => show win2_0.index t (1 : Fin 3) * 1024 + 1 * (y 1).val = (y 1).val; omega
  | ⟨2, _⟩ => show win2_0.index t (2 : Fin 3) * 256 + 1 * (y 2).val = (y 2).val; omega

theorem r2_blk1 (t : Fin cfg2.N) : iblk2 V c 1 t = fun y => MA V c (ix3 (t.cast N_2) (y 1) (y 2)) := by
  obtain ⟨-, ⟨e0, e1, e2⟩, -⟩ := r2_idx t
  funext y
  have : (y 0).val < 1 := (y 0).isLt
  show V c main_v16 (((cfg2.win 1).blk t).view.emb y) = _
  refine congrArg _ (funext fun a => Fin.ext ?_)
  match a with
  | ⟨0, _⟩ => show win2_1.index t (0 : Fin 3) * 1 + 1 * (y 0).val = t.val; omega
  | ⟨1, _⟩ => show win2_1.index t (1 : Fin 3) * 256 + 1 * (y 1).val = (y 1).val; omega
  | ⟨2, _⟩ => show win2_1.index t (2 : Fin 3) * 256 + 1 * (y 2).val = (y 2).val; omega

theorem r2_blk2 (t : Fin cfg2.N) : iblk2 V c 2 t = fun y => aimR V c (ix3 (t.cast N_2) (y 1) (y 2)) := by
  obtain ⟨-, -, ⟨e0, e1, e2⟩, -⟩ := r2_idx t
  funext y
  have : (y 0).val < 1 := (y 0).isLt
  show V c main_v1 (((cfg2.win 2).blk t).view.emb y) = _
  refine congrArg _ (funext fun a => Fin.ext ?_)
  match a with
  | ⟨0, _⟩ => show win2_2.index t (0 : Fin 3) * 1 + 1 * (y 0).val = t.val; omega
  | ⟨1, _⟩ => show win2_2.index t (1 : Fin 3) * 1024 + 1 * (y 1).val = (y 1).val; omega
  | ⟨2, _⟩ => show win2_2.index t (2 : Fin 3) * 512 + 1 * (y 2).val = (y 2).val; omega

theorem r2_emb9 (t : Fin cfg2.N) (y : S1x1024x512.Idx) : ((cfg2.win 9).blk t).view.emb y = ix3 (t.cast N_2) (y 1) (y 2) := by
  obtain ⟨-, -, -, ⟨e0, e1, e2⟩, -⟩ := r2_idx t
  have : (y 0).val < 1 := (y 0).isLt
  refine funext fun a => Fin.ext ?_
  match a with
  | ⟨0, _⟩ => show win2_9.index t (0 : Fin 3) * 1 + 1 * (y 0).val = t.val; omega
  | ⟨1, _⟩ => show win2_9.index t (1 : Fin 3) * 1024 + 1 * (y 1).val = (y 1).val; omega
  | ⟨2, _⟩ => show win2_9.index t (2 : Fin 3) * 512 + 1 * (y 2).val = (y 2).val; omega

/-- At block index zero on every axis an entry of the block has the same coordinates in the array. -/
theorem r2_blk3 (t : Fin cfg2.N) : iblk2 V c 3 t = WwA V c := funext fun y => congrArg (V c main_arg8)
  (funext fun a => Fin.ext (win2_3.rect_emb_val_of_index_zero t a ((r2_idx t).2.2.2.2.1 a) y))
theorem r2_blk4 (t : Fin cfg2.N) : iblk2 V c 4 t = bwR V c := funext fun y => congrArg (V c main_v5)
  (funext fun a => Fin.ext (win2_4.rect_emb_val_of_index_zero t a ((r2_idx t).2.2.2.2.2.1 a) y))
theorem r2_blk5 (t : Fin cfg2.N) : iblk2 V c 5 t = gwR V c := funext fun y => congrArg (V c main_v6)
  (funext fun a => Fin.ext (win2_5.rect_emb_val_of_index_zero t a ((r2_idx t).2.2.2.2.2.2.1 a) y))
theorem r2_blk6 (t : Fin cfg2.N) : iblk2 V c 6 t = betwR V c := funext fun y => congrArg (V c main_v7)
  (funext fun a => Fin.ext (win2_6.rect_emb_val_of_index_zero t a ((r2_idx t).2.2.2.2.2.2.2.1 a) y))
theorem r2_blk7 (t : Fin cfg2.N) : iblk2 V c 7 t = mwR V c := funext fun y => congrArg (V c main_v8)
  (funext fun a => Fin.ext (win2_7.rect_emb_val_of_index_zero t a ((r2_idx t).2.2.2.2.2.2.2.2.1 a) y))
theorem r2_blk8 (t : Fin cfg2.N) : iblk2 V c 8 t = vwR V c := funext fun y => congrArg (V c main_v9)
  (funext fun a => Fin.ext (win2_8.rect_emb_val_of_index_zero t a ((r2_idx t).2.2.2.2.2.2.2.2.2 a) y))

theorem r2_flushed_eq (t : Fin cfg2.N) :
    (dat2 V c).flushed 9 t = ((cfg2.win 9).blk t).view.read (Elt Ideal) (r2_G V c) := by
  show (cfg2.win 9).cut (cfg2.grid.coords t) ((dat2 V c).after 9 t) = _
  rw [after2_9, r2_blk0, r2_blk1, r2_blk2, r2_blk3, r2_blk4, r2_blk5, r2_blk6, r2_blk7, r2_blk8]
  funext y
  obtain ⟨u, n, d, rfl⟩ : ∃ (u : Fin 1) (n : Fin 1024) (d : Fin 512), y = ix3 u n d := ⟨y 0, y 1, y 2, eq_ix3 y⟩
  rw [View.read_apply, r2_emb9]
  exact r2_pay_apply _ _ _ _ _ _ _ _ _ u n d

/-- The eight blocks tile the array: index (b, n, d) is entry (0, n, d) of the block of point b. -/
theorem r2_cover (i : S8x1024x512.Idx) : ∃ t : Fin cfg2.N, (cfg2.win 9).flush t = true ∧ i ∈ ((cfg2.win 9).blk t).view.set := by
  obtain ⟨b, n, d, rfl⟩ : ∃ (b : Fin 8) (n : Fin 1024) (d : Fin 512), i = ix3 b n d := ⟨i 0, i 1, i 2, eq_ix3 i⟩
  have h := ((cfg2.win 9).blk (b.cast N_2.symm)).view.emb_mem_set (ix3 0 n d)
  rw [r2_emb9] at h
  exact ⟨_, flush2_9 _, h⟩

theorem val2_out (b : Fin 8) (n : Fin 1024) (d : Fin 512) :
    m3 ((dat2 (F := Ideal) V c).arrAt 9 cfg2.N : S8x1024x512.Idx → EReal) b n d
      = head (kpre (m3 (thetaA V c) b n) (m3 (MA V c) b)) (m2 (WwA V c)) (r1 (bwR V c)) (r1 (gwR V c)) (r1 (betwR V c))
          (r1 (mwR V c)) (r1 (vwR V c)) (m3 (aimR V c) b n d) d :=
  congrFun ((dat2 V c).arrAt_eq_of_cover 9 (r2_G V c) (fun t _ => r2_flushed_eq V c t) r2_cover) (ix3 b n d)

end Cert.KernelIdeal.Reg

end
-- ==== Proof.KI.R3Val.lean ====
import proofs.«154970_j43301860278975_1_alg».proof.Proof.KI.R3Body
import proofs.«154970_j43301860278975_1_alg».proof.Proof.KI.Views
import Idealize.ShloMosaic.Lib.ValueLayout
import Idealize.ShloMosaic.Lib.StackMember

noncomputable section

namespace Cert.KernelIdeal.Reg

open Cert.KernelIdeal Cert.KernelIdeal.Gen
open Idealize.ShloMosaic Idealize.ShloMosaic.TcCoe Idealize.ShloMosaic.ValueIdx Idealize.ShloMosaic.StackMember
open Idealize.ShloMosaic.Pipeline (Dat)
open Cert.Spec
open scoped BigOperators

/-- The stored tile at row p, channel d, from the ten loaded blocks: the head of phi's row through N, plus detect's entry. -/
theorem r3_out_apply (x0 : Vec Ideal S1x1024x512 .f32) (x1 : Vec Ideal S512x256 .f32) (x2 : Vec Ideal S1x256 .f32)
    (x3 : Vec Ideal S1x256x256 .f32) (x4 : Vec Ideal S256x512 .f32) (x5 x6 x7 x8 x9 : Vec Ideal S1x512 .f32)
    (u : Fin 1) (p : Fin 1024) (d : Fin 512) :
    out3 x0 x1 x2 x3 x4 x5 x6 x7 x8 x9 (ix3 u p d)
      = head (kpre (conv (fun j => x0 (ix3 0 p j)) (m2 x1) (r1 x2)) (fun k e => x3 (ix3 0 k e)))
          (m2 x4) (r1 x5) (r1 x6) (r1 x7) (r1 x8) (r1 x9) (x0 (ix3 0 p d)) d := by
  unfold out3 k3_pay1 k3_pay6 k3_pay2 k3_pay3 k3_pay4 k3_pay5
  dsimp only
  rw [shapeCast_ab_1ab_apply]
  simp only [addf_apply, mulf_apply, subf_apply, broadcastTo_1b_ab_apply, shapeCast_self, truncf_apply, shapeCast_1ab_ab_apply,
    mm_plain dot_S1024x256_S256x512_S1024x512_1_0_0_1_n_n rfl, mm_plain dot_S1024x256_S256x256_S1024x256_1_0_0_1_n_n rfl,
    mm_plain dot_S1024x512_S512x256_S1024x256_1_0_0_1_n_n rfl]
  rfl

variable (V : (c : Dev nD) → (b : Ref sig .tc) → Buf (Elt Ideal) ((c : Thread nD τ).loc b)) (c : Dev nD)

/-- Point t works on batch t / 4 and on rows 1024 (t % 4) + p of that batch. -/
def r3_b (t : Fin cfg3.N) : Fin 8 := ⟨t.val / 4, by have := lt_of_lt_of_eq t.isLt N_3; omega⟩
def r3_n (t : Fin cfg3.N) (p : Fin 1024) : Fin 4096 := ⟨1024 * (t.val % 4) + p.val, by have := p.isLt; omega⟩

def r3_G : S8x4096x512.Idx → EReal := fun i =>
  head (kpre (conv (m3 (detR V c) (i 0) (i 1)) (m2 (WpA V c)) (r1 (bpR V c))) (m3 (NA V c) (i 0))) (m2 (WqA V c)) (r1 (bqR V c))
    (r1 (gqR V c)) (r1 (betqR V c)) (r1 (mqR V c)) (r1 (vqR V c)) (m3 (detR V c) (i 0) (i 1) (i 2)) (i 2)

theorem r3_idx : ∀ t : Fin cfg3.N,
    (win3_0.index t (0 : Fin 3) = t.val / 4 ∧ win3_0.index t (1 : Fin 3) = t.val % 4 ∧ win3_0.index t (2 : Fin 3) = 0)
    ∧ (win3_3.index t (0 : Fin 3) = t.val / 4 ∧ win3_3.index t (1 : Fin 3) = 0 ∧ win3_3.index t (2 : Fin 3) = 0)
    ∧ (win3_10.index t (0 : Fin 3) = t.val / 4 ∧ win3_10.index t (1 : Fin 3) = t.val % 4 ∧ win3_10.index t (2 : Fin 3) = 0)
    ∧ (∀ a, win3_1.index t a = 0) ∧ (∀ a, win3_2.index t a = 0) ∧ (∀ a, win3_4.index t a = 0) ∧ (∀ a, win3_5.index t a = 0)
    ∧ (∀ a, win3_6.index t a = 0) ∧ (∀ a, win3_7.index t a = 0) ∧ (∀ a, win3_8.index t a = 0) ∧ ∀ a, win3_9.index t a = 0 :=
  (by decide +kernel : ∀ t : Fin grid3.N, _)

theorem r3_blk0 (t : Fin cfg3.N) : iblk3 V c 0 t = fun y => detR V c (ix3 (r3_b t) (r3_n t (y 1)) (y 2)) := by
  obtain ⟨⟨e0, e1, e2⟩, -⟩ := r3_idx t
  funext y
  have : (y 0).val < 1 := (y 0).isLt
  show V c main_v0 (((cfg3.win 0).blk t).view.emb y) = _
  refine congrArg _ (funext fun a => Fin.ext ?_)
  match a with
  | ⟨0, _⟩ => show win3_0.index t (0 : Fin 3) * 1 + 1 * (y 0).val = t.val / 4; omega
  | ⟨1, _⟩ => show win3_0.index t (1 : Fin 3) * 1024 + 1 * (y 1).val = 1024 * (t.val % 4) + (y 1).val; omega
  | ⟨2, _⟩ => show win3_0.index t (2 : Fin 3) * 512 + 1 * (y 2).val = (y 2).val; omega

theorem r3_blk3 (t : Fin cfg3.N) : iblk3 V c 3 t = fun y => NA V c (ix3 (r3_b t) (y 1) (y 2)) := by
  obtain ⟨-, ⟨e0, e1, e2⟩, -⟩ := r3_idx t
  funext y
  have : (y 0).val < 1 := (y 0).isLt
  show V c main_v15_1 (((cfg3.win 3).blk t).view.emb y) = _
  refine congrArg _ (funext fun a => Fin.ext ?_)
  match a with
  | ⟨0, _⟩ => show win3_3.index t (0 : Fin 3) * 1 + 1 * (y 0).val = t.val / 4; omega
  | ⟨1, _⟩ => show win3_3.index t (1 : Fin 3) * 256 + 1 * (y 1).val = (y 1).val; omega
  | ⟨2, _⟩ => show win3_3.index t (2 : Fin 3) * 256 + 1 * (y 2).val = (y 2).val; omega

theorem r3_emb10 (t : Fin cfg3.N) (y : S1x1024x512.Idx) :
    ((cfg3.win 10).blk t).view.emb y = ix3 (r3_b t) (r3_n t (y 1)) (y 2) := by
  obtain ⟨-, -, ⟨e0, e1, e2⟩, -⟩ := r3_idx t
  have : (y 0).val < 1 := (y 0).isLt
  refine funext fun a => Fin.ext ?_
  match a with
  | ⟨0, _⟩ => show win3_10.index t (0 : Fin 3) * 1 + 1 * (y 0).val = t.val / 4; omega
  | ⟨1, _⟩ => show win3_10.index t (1 : Fin 3) * 1024 + 1 * (y 1).val = 1024 * (t.val % 4) + (y 1).val; omega
  | ⟨2, _⟩ => show win3_10.index t (2 : Fin 3) * 512 + 1 * (y 2).val = (y 2).val; omega

/-- At block index zero on every axis an entry of the block has the same coordinates in the array. -/
theorem r3_blk1 (t : Fin cfg3.N) : iblk3 V c 1 t = WpA V c := funext fun y => congrArg (V c main_arg6)
  (funext fun a => Fin.ext (win3_1.rect_emb_val_of_index_zero t a ((r3_idx t).2.2.2.1 a) y))
theorem r3_blk2 (t : Fin cfg3.N) : iblk3 V c 2 t = bpR V c := funext fun y => congrArg (V c main_v4)
  (funext fun a => Fin.ext (win3_2.rect_emb_val_of_index_zero t a ((r3_idx t).2.2.2.2.1 a) y))
theorem r3_blk4 (t : Fin cfg3.N) : iblk3 V c 4 t = WqA V c := funext fun y => congrArg (V c main_arg14)
  (funext fun a => Fin.ext (win3_4.rect_emb_val_of_index_zero t a ((r3_idx t).2.2.2.2.2.1 a) y))
theorem r3_blk5 (t : Fin cfg3.N) : iblk3 V c 5 t = bqR V c := funext fun y => congrArg (V c main_v10)
  (funext fun a => Fin.ext (win3_5.rect_emb_val_of_index_zero t a ((r3_idx t).2.2.2.2.2.2.1 a) y))
theorem r3_blk6 (t : Fin cfg3.N) : iblk3 V c 6 t = gqR V c := funext fun y => congrArg (V c main_v11)
  (funext fun a => Fin.ext (win3_6.rect_emb_val_of_index_zero t a ((r3_idx t).2.2.2.2.2.2.2.1 a) y))
theorem r3_blk7 (t : Fin cfg3.N) : iblk3 V c 7 t = betqR V c := funext fun y => congrArg (V c main_v12)
  (funext fun a => Fin.ext (win3_7.rect_emb_val_of_index_zero t a ((r3_idx t).2.2.2.2.2.2.2.2.1 a) y))
theorem r3_blk8 (t : Fin cfg3.N) : iblk3 V c 8 t = mqR V c := funext fun y => congrArg (V c main_v13)
  (funext fun a => Fin.ext (win3_8.rect_emb_val_of_index_zero t a ((r3_idx t).2.2.2.2.2.2.2.2.2.1 a) y))
theorem r3_blk9 (t : Fin cfg3.N) : iblk3 V c 9 t = vqR V c := funext fun y => congrArg (V c main_v14)
  (funext fun a => Fin.ext (win3_9.rect_emb_val_of_index_zero t a ((r3_idx t).2.2.2.2.2.2.2.2.2.2 a) y))

theorem r3_flushed_eq (t : Fin cfg3.N) :
    (dat3 (F := Ideal) V c).flushed 10 t = ((cfg3.win 10).blk t).view.read (Elt Ideal) (r3_G V c) := by
  show (cfg3.win 10).cut (cfg3.grid.coords t) ((dat3 (F := Ideal) V c).after 10 t) = _
  rw [after3_10, r3_blk0, r3_blk1, r3_blk2, r3_blk3, r3_blk4, r3_blk5, r3_blk6, r3_blk7, r3_blk8, r3_blk9]
  funext y
  obtain ⟨u, p, d, rfl⟩ : ∃ (u : Fin 1) (p : Fin 1024) (d : Fin 512), y = ix3 u p d := ⟨y 0, y 1, y 2, eq_ix3 y⟩
  rw [View.read_apply, r3_emb10]
  exact r3_out_apply _ _ _ _ _ _ _ _ _ _ u p d

/-- The 32 tiles cover the array: index (b, n, d) is in the tile of point 4 b + n / 1024. -/
theorem r3_cover (i : S8x4096x512.Idx) :
    ∃ t : Fin cfg3.N, (cfg3.win 10).flush t = true ∧ i ∈ ((cfg3.win 10).blk t).view.set := by
  have h0 : (i 0).val < 8 := (i 0).isLt
  have h1 : (i 1).val < 4096 := (i 1).isLt
  have h2 : (i 2).val < 512 := (i 2).isLt
  obtain ⟨t, ht⟩ : ∃ t : Fin cfg3.N, t.val = 4 * (i 0).val + (i 1).val / 1024 :=
    ⟨⟨4 * (i 0).val + (i 1).val / 1024, by rw [show cfg3.N = 32 from N_3]; omega⟩, rfl⟩
  obtain ⟨-, -, ⟨e0, e1, e2⟩, -⟩ := r3_idx t
  refine ⟨t, flush3_10 t, ?_⟩
  show i ∈ ((View.whole main_v18).slice (win3_10.rect t)).set
  rw [View.set_slice_whole, Rect.mem_set_unit]
  intro a
  match a with
  | ⟨0, _⟩ => show win3_10.index t (0 : Fin 3) * 1 ≤ (i 0).val ∧ (i 0).val < win3_10.index t (0 : Fin 3) * 1 + 1; omega
  | ⟨1, _⟩ => show win3_10.index t (1 : Fin 3) * 1024 ≤ (i 1).val ∧ (i 1).val < win3_10.index t (1 : Fin 3) * 1024 + 1024; omega
  | ⟨2, _⟩ => show win3_10.index t (2 : Fin 3) * 512 ≤ (i 2).val ∧ (i 2).val < win3_10.index t (2 : Fin 3) * 512 + 512; omega

theorem val3_out (b : Fin 8) (n : Fin 4096) (d : Fin 512) :
    m3 ((dat3 (F := Ideal) V c).arrAt 10 cfg3.N : S8x4096x512.Idx → EReal) b n d
      = head (kpre (conv (m3 (detR V c) b n) (m2 (WpA V c)) (r1 (bpR V c))) (m3 (NA V c) b)) (m2 (WqA V c)) (r1 (bqR V c))
          (r1 (gqR V c)) (r1 (betqR V c)) (r1 (mqR V c)) (r1 (vqR V c)) (m3 (detR V c) b n d) d :=
  congrFun ((dat3 (F := Ideal) V c).arrAt_eq_of_cover 10 (r3_G V c) (fun t _ => r3_flushed_eq V c t) r3_cover) (ix3 b n d)

end Cert.KernelIdeal.Reg

end
-- ==== Proof.KI.Chain.lean ====
import proofs.«154970_j43301860278975_1_alg».proof.Proof.KI.Fold
import proofs.«154970_j43301860278975_1_alg».proof.Proof.KI.Args
import proofs.«154970_j43301860278975_1_alg».proof.Proof.KI.R0Val
import proofs.«154970_j43301860278975_1_alg».proof.Proof.KI.R1Val
import proofs.«154970_j43301860278975_1_alg».proof.Proof.KI.R2Val
import proofs.«154970_j43301860278975_1_alg».proof.Proof.KI.R3Val
import proofs.«154970_j43301860278975_1_alg».proof.Proof.Gen.KernelIdeal.Regions
import Idealize.ShloMosaic.Lib.StableHlo.Run
import Idealize.ShloMosaic.Lib.ValueLayout

noncomputable section

namespace Cert.KernelIdeal.Reg

open Cert.KernelIdeal Cert.KernelIdeal.Gen
open Idealize.ShloMosaic Idealize.ShloMosaic.TcCoe Idealize.ShloMosaic.ValueIdx
open Idealize.ShloMosaic.Pipeline (Dat)
open Cert.Spec
open scoped BigOperators

variable (m : (ℓ : Loc nD τ sig) → Buf (Elt Ideal) ℓ) (c : Dev nD)

namespace Chain

-- A region hands back unchanged every buffer that is not one of its output arrays.
theorem W2_keep (r : Ref sig .tc) (h : ∀ w, Pipeline.arrRef spec0 w = r → (cfg0.win w).isOut = false) :
    W2 m c (no_index (Proc.devRef .tc r)) = W1 m c (Proc.devRef .tc r) := by
  by_cases hr : ∃ w, Pipeline.arrRef spec0 w = r
  · obtain ⟨w, rfl⟩ := hr
    rw [W2_arr, (dat0 (V1 m) c).arrAt_in w (h w rfl)]; rfl
  · exact W2_of_ne m c r fun w e => hr ⟨w, e⟩

theorem W3_keep (r : Ref sig .tc) (h : ∀ w, Pipeline.arrRef spec1 w = r → (cfg1.win w).isOut = false) :
    W3 m c (no_index (Proc.devRef .tc r)) = W2 m c (Proc.devRef .tc r) := by
  by_cases hr : ∃ w, Pipeline.arrRef spec1 w = r
  · obtain ⟨w, rfl⟩ := hr
    rw [W3_arr, (dat1 (V2 m) c).arrAt_in w (h w rfl)]; rfl
  · exact W3_of_ne m c r fun w e => hr ⟨w, e⟩

theorem W4_keep (r : Ref sig .tc) (h : ∀ w, Pipeline.arrRef spec2 w = r → (cfg2.win w).isOut = false) :
    W4 m c (no_index (Proc.devRef .tc r)) = W3 m c (Proc.devRef .tc r) := by
  by_cases hr : ∃ w, Pipeline.arrRef spec2 w = r
  · obtain ⟨w, rfl⟩ := hr
    rw [W4_arr, (dat2 (V3 m) c).arrAt_in w (h w rfl)]; rfl
  · exact W4_of_ne m c r fun w e => hr ⟨w, e⟩

theorem W1_arg (r : Ref sig .tc) (h : r ∉ hostOps0_W) : W1 m c (no_index (Proc.devRef .tc r)) = m ((c : Thread nD τ).loc r) :=
  StableHlo.after_of_writes_sub hostOps0 _ hostOps0_writes h

theorem r1_shapeCast {a : ℕ} (x : (⟨1, ![a]⟩ : Shape).Idx → EReal) (h : (⟨1, ![a]⟩ : Shape).ShapeCasts ⟨2, ![1, a]⟩) :
    r1 (shapeCast ⟨2, ![1, a]⟩ x h) = v1 x :=
  funext fun j => shapeCast_a_1a_apply x h 0 j

-- Each opening reshape of a vector to one row, read by its column, is the vector.
theorem bg_W1 : r1 (W1 m c (Proc.devRef .tc main_v2) : S1x256.Idx → EReal) = v1 (a3 m c) := by
  after_results; exact r1_shapeCast _ _
theorem bt_W1 : r1 (W1 m c (Proc.devRef .tc main_v3) : S1x256.Idx → EReal) = v1 (a5 m c) := by
  after_results; exact r1_shapeCast _ _
theorem bp_W1 : r1 (W1 m c (Proc.devRef .tc main_v4) : S1x256.Idx → EReal) = v1 (a7 m c) := by
  after_results; exact r1_shapeCast _ _
theorem bw_W1 : r1 (W1 m c (Proc.devRef .tc main_v5) : S1x512.Idx → EReal) = v1 (a9 m c) := by
  after_results; exact r1_shapeCast _ _
theorem gw_W1 : r1 (W1 m c (Proc.devRef .tc main_v6) : S1x512.Idx → EReal) = v1 (a10 m c) := by
  after_results; exact r1_shapeCast _ _
theorem betw_W1 : r1 (W1 m c (Proc.devRef .tc main_v7) : S1x512.Idx → EReal) = v1 (a11 m c) := by
  after_results; exact r1_shapeCast _ _
theorem mw_W1 : r1 (W1 m c (Proc.devRef .tc main_v8) : S1x512.Idx → EReal) = v1 (a12 m c) := by
  after_results; exact r1_shapeCast _ _
theorem vw_W1 : r1 (W1 m c (Proc.devRef .tc main_v9) : S1x512.Idx → EReal) = v1 (a13 m c) := by
  after_results; exact r1_shapeCast _ _
theorem bq_W1 : r1 (W1 m c (Proc.devRef .tc main_v10) : S1x512.Idx → EReal) = v1 (a15 m c) := by
  after_results; exact r1_shapeCast _ _
theorem gq_W1 : r1 (W1 m c (Proc.devRef .tc main_v11) : S1x512.Idx → EReal) = v1 (a16 m c) := by
  after_results; exact r1_shapeCast _ _
theorem betq_W1 : r1 (W1 m c (Proc.devRef .tc main_v12) : S1x512.Idx → EReal) = v1 (a17 m c) := by
  after_results; exact r1_shapeCast _ _
theorem mq_W1 : r1 (W1 m c (Proc.devRef .tc main_v13) : S1x512.Idx → EReal) = v1 (a18 m c) := by
  after_results; exact r1_shapeCast _ _
theorem vq_W1 : r1 (W1 m c (Proc.devRef .tc main_v14) : S1x512.Idx → EReal) = v1 (a19 m c) := by
  after_results; exact r1_shapeCast _ _

-- Position n of a flattened grid is row n / side and column n % side.
theorem aim_W1 (b : Fin 8) : m3 (W1 m c (Proc.devRef .tc main_v1) : S8x1024x512.Idx → EReal) b = aimS (a1 m c) b := by
  funext n k
  show (W1 m c (Proc.devRef .tc main_v1) : S8x1024x512.Idx → EReal) (ix3 b n k) = a1 m c (ix4 b (pos32 n).1 (pos32 n).2 k)
  after_results
  exact shapeCast_apply (s := S8x32x32x512) (t := S8x1024x512) _ _ _ _ (by
    rw [Shape.rowMajor_val_four, Shape.rowMajor_val_three]
    show ((b.val * 32 + n.val / 32) * 32 + n.val % 32) * 512 + k.val = (b.val * 1024 + n.val) * 512 + k.val
    omega)

theorem det_W1 (b : Fin 8) : m3 (W1 m c (Proc.devRef .tc main_v0) : S8x4096x512.Idx → EReal) b = detS (a0 m c) b := by
  funext n k
  show (W1 m c (Proc.devRef .tc main_v0) : S8x4096x512.Idx → EReal) (ix3 b n k) = a0 m c (ix4 b (pos64 n).1 (pos64 n).2 k)
  after_results
  exact shapeCast_apply (s := S8x64x64x512) (t := S8x4096x512) _ _ _ _ (by
    rw [Shape.rowMajor_val_four, Shape.rowMajor_val_three]
    show ((b.val * 64 + n.val / 64) * 64 + n.val % 64) * 512 + k.val = (b.val * 4096 + n.val) * 512 + k.val
    omega)

-- theta and N after region 0 and M after region 1, over the launch arrays.
theorem theta_W2 (b : Fin 8) (n : Fin 1024) :
    m3 (W2 m c (Proc.devRef .tc main_v15_0) : S8x1024x256.Idx → EReal) b n
      = conv (aimS (a1 m c) b n) (m2 (a4 m c)) (v1 (a5 m c)) := by
  funext j
  have e : (W2 m c (Proc.devRef .tc main_v15_0) : S8x1024x256.Idx → EReal) = (dat0 (V1 m) c).arrAt 5 cfg0.N := W2_arr m c 5
  rw [e, val0_theta (V1 m) c b n j]
  dsimp only [aimR, WtA, btR, V1]
  rw [aim_W1, bt_W1, W1_arg m c main_arg4 (by decide)]

theorem N_W2 (b : Fin 8) :
    m3 (W2 m c (Proc.devRef .tc main_v15_1) : S8x256x256.Idx → EReal) b
      = nmat (fun n => conv (aimS (a1 m c) b n) (m2 (a4 m c)) (v1 (a5 m c)))
          (fun n => conv (aimS (a1 m c) b n) (m2 (a2 m c)) (v1 (a3 m c))) := by
  funext i j
  have e : (W2 m c (Proc.devRef .tc main_v15_1) : S8x256x256.Idx → EReal) = (dat0 (V1 m) c).arrAt 6 cfg0.N := W2_arr m c 6
  rw [e, val0_N (V1 m) c b i j]
  dsimp only [aimR, WtA, btR, WgA, bgR, V1]
  rw [aim_W1, bt_W1, bg_W1, W1_arg m c main_arg4 (by decide), W1_arg m c main_arg2 (by decide)]

theorem M_W3 (b : Fin 8) :
    m3 (W3 m c (Proc.devRef .tc main_v16) : S8x256x256.Idx → EReal) b
      = mmat (fun n => conv (detS (a0 m c) b n) (m2 (a6 m c)) (v1 (a7 m c)))
          (fun n => conv (detS (a0 m c) b n) (m2 (a2 m c)) (v1 (a3 m c))) := by
  funext i j
  have e : (W3 m c (Proc.devRef .tc main_v16) : S8x256x256.Idx → EReal) = (dat1 (V2 m) c).arrAt 5 cfg1.N := W3_arr m c 5
  rw [e, val1_M (V2 m) c b i j]
  dsimp only [detR, WpA, bpR, WgA, bgR, V2]
  simp (disch := decide) only [W2_keep, W1_arg]
  rw [det_W1, bp_W1, bg_W1]

theorem m3_apply {a b c : ℕ} (x : (⟨3, ![a, b, c]⟩ : Shape).Idx → EReal) (i : Fin a) (j : Fin b) (k : Fin c) :
    m3 x i j k = x (ix3 i j k) := rfl

-- Each closing reshape read at row h, column w of the grid is the flat array at position side * h + w.
theorem W6_v19_at (b : Fin 8) (n : Fin 1024) (d : Fin 512) :
    (W6 m c (Proc.devRef .tc main_v19) : S8x32x32x512.Idx → EReal) (ix4 b (pos32 n).1 (pos32 n).2 d)
      = m3 (W5 m c (Proc.devRef .tc main_v17) : S8x1024x512.Idx → EReal) b n d := by
  rw [m3_apply]
  show StableHlo.after hostOps4 (W5 m c) (Proc.devRef .tc main_v19) _ = _
  after_results
  exact shapeCast_apply (s := S8x1024x512) (t := S8x32x32x512) _ _ _ _ (by
    rw [Shape.rowMajor_val_four, Shape.rowMajor_val_three]
    show (b.val * 1024 + n.val) * 512 + d.val = ((b.val * 32 + n.val / 32) * 32 + n.val % 32) * 512 + d.val
    omega)

theorem W6_v20_at (b : Fin 8) (n : Fin 4096) (d : Fin 512) :
    (W6 m c (Proc.devRef .tc main_v20) : S8x64x64x512.Idx → EReal) (ix4 b (pos64 n).1 (pos64 n).2 d)
      = m3 (W5 m c (Proc.devRef .tc main_v18) : S8x4096x512.Idx → EReal) b n d := by
  rw [m3_apply]
  show StableHlo.after hostOps4 (W5 m c) (Proc.devRef .tc main_v20) _ = _
  after_results
  exact shapeCast_apply (s := S8x4096x512) (t := S8x64x64x512) _ _ _ _ (by
    rw [Shape.rowMajor_val_four, Shape.rowMajor_val_three]
    show (b.val * 4096 + n.val) * 512 + d.val = ((b.val * 64 + n.val / 64) * 64 + n.val % 64) * 512 + d.val
    omega)

end Chain

open Chain in
-- The first result: each array region 2 reads is followed back to where it was written.
theorem out1 (b : Fin 8) (n : Fin 1024) (d : Fin 512) :
    (W6 (F := Ideal) m c (Proc.devRef .tc main_v19) : S8x32x32x512.Idx → EReal) (ix4 b (pos32 n).1 (pos32 n).2 d)
      = KOut1 (aimS (a1 m c) b) (detS (a0 m c) b) (m2 (a2 m c)) (m2 (a4 m c)) (m2 (a6 m c)) (v1 (a3 m c)) (v1 (a5 m c)) (v1 (a7 m c))
          (m2 (a8 m c)) (v1 (a9 m c)) (v1 (a10 m c)) (v1 (a11 m c)) (v1 (a12 m c)) (v1 (a13 m c)) n d := by
  have e : (W5 m c (Proc.devRef .tc main_v17) : S8x1024x512.Idx → EReal) = (dat2 (V3 m) c).arrAt 9 cfg2.N :=
    (W5_of_ne m c main_v17 (by decide)).trans (W4_arr m c 9)
  rw [W6_v19_at, e, val2_out (V3 m) c b n d]
  dsimp only [thetaA, MA, WwA, bwR, gwR, betwR, mwR, vwR, aimR, V3]
  simp (disch := decide) only [W3_keep, W2_keep, W1_arg]
  rw [theta_W2, M_W3, aim_W1, bw_W1, gw_W1, betw_W1, mw_W1, vw_W1]
  rfl

open Chain in
-- The second result, likewise through region 3.
theorem out2 (b : Fin 8) (n : Fin 4096) (d : Fin 512) :
    (W6 (F := Ideal) m c (Proc.devRef .tc main_v20) : S8x64x64x512.Idx → EReal) (ix4 b (pos64 n).1 (pos64 n).2 d)
      = KOut2 (aimS (a1 m c) b) (detS (a0 m c) b) (m2 (a2 m c)) (m2 (a4 m c)) (m2 (a6 m c)) (v1 (a3 m c)) (v1 (a5 m c)) (v1 (a7 m c))
          (m2 (a14 m c)) (v1 (a15 m c)) (v1 (a16 m c)) (v1 (a17 m c)) (v1 (a18 m c)) (v1 (a19 m c)) n d := by
  have e : (W5 m c (Proc.devRef .tc main_v18) : S8x4096x512.Idx → EReal) = (dat3 (V4 m) c).arrAt 10 cfg3.N := W5_arr m c 10
  rw [W6_v20_at, e, val3_out (V4 m) c b n d]
  dsimp only [detR, WpA, bpR, NA, WqA, bqR, gqR, betqR, mqR, vqR, V4]
  simp (disch := decide) only [W4_keep, W3_keep, W2_keep, W1_arg]
  rw [det_W1, bp_W1, N_W2, bq_W1, gq_W1, betq_W1, mq_W1, vq_W1]
  rfl

end Cert.KernelIdeal.Reg

end
-- ==== Proof.Ref.lean ====
import proofs.«154970_j43301860278975_1_alg».proof.Proof.Gen.ReferenceIdeal.Read
import proofs.«154970_j43301860278975_1_alg».proof.Proof.Spec

noncomputable section

namespace Cert.ReferenceIdeal.RefValue

open Cert.Spec Read Idealize.ShloMosaic Idealize.ShloMosaic.ValueIdx
open scoped BigOperators

variable (x0 : (⟨S8x64x64x512, .f32⟩ : BufTy).Contents (Elt Ideal)) (x1 : (⟨S8x32x32x512, .f32⟩ : BufTy).Contents (Elt Ideal))
  (x2 : (⟨S512x256, .f32⟩ : BufTy).Contents (Elt Ideal)) (x3 : (⟨S256, .f32⟩ : BufTy).Contents (Elt Ideal))
  (x4 : (⟨S512x256, .f32⟩ : BufTy).Contents (Elt Ideal)) (x5 : (⟨S256, .f32⟩ : BufTy).Contents (Elt Ideal))
  (x6 : (⟨S512x256, .f32⟩ : BufTy).Contents (Elt Ideal)) (x7 : (⟨S256, .f32⟩ : BufTy).Contents (Elt Ideal))
  (x8 : (⟨S256x512, .f32⟩ : BufTy).Contents (Elt Ideal)) (x9 x10 x11 x12 x13 : (⟨S512, .f32⟩ : BufTy).Contents (Elt Ideal))
  (x14 : (⟨S256x512, .f32⟩ : BufTy).Contents (Elt Ideal)) (x15 x16 x17 x18 x19 : (⟨S512, .f32⟩ : BufTy).Contents (Elt Ideal))

/-- Row h, column w of the 32 x 32 grid and position 32 h + w of the flattened array are the same place in row-major order. -/
theorem lin32 (b : Fin 8) (n : Fin 1024) (c : Fin 256) :
    (S8x32x32x256.rowMajor (ix4 b (pos32 n).1 (pos32 n).2 c)).val = (S8x1024x256.rowMajor (ix3 b n c)).val := by
  rw [Shape.rowMajor_val_four, Shape.rowMajor_val_three]
  show ((b.val * 32 + n.val / 32) * 32 + n.val % 32) * 256 + c.val = (b.val * 1024 + n.val) * 256 + c.val
  omega

/-- Row h, column w of the 64 x 64 grid and position 64 h + w of the flattened array are the same place in row-major order. -/
theorem lin64 (b : Fin 8) (n : Fin 4096) (c : Fin 256) :
    (S8x64x64x256.rowMajor (ix4 b (pos64 n).1 (pos64 n).2 c)).val = (S8x4096x256.rowMajor (ix3 b n c)).val := by
  rw [Shape.rowMajor_val_four, Shape.rowMajor_val_three]
  show ((b.val * 64 + n.val / 64) * 64 + n.val % 64) * 256 + c.val = (b.val * 4096 + n.val) * 256 + c.val
  omega

/-- theta or a at a flattened position: that position's 512 channels through the weights, plus the bias. -/
theorem conv32_at (b : Fin 8) (n : Fin 1024) (c : Fin 256) :
    val_main_v9 (F := Ideal) x1 x2 x3 (ix3 b n c) = conv (aimS x1 b n) (m2 x2) (v1 x3) c := by
  unfold val_main_v9
  rw [shapeCast_apply _ _ _ _ (lin32 b n c), val_main_v8_apply, val_main_v5_apply, val_main_v7_apply, val_main_v6_apply]
  exact congrArg₂ (· + ·) (Finset.sum_congr rfl fun k _ =>
    congrArg₂ (· * ·) (congrArg x1 (eq_ix4 _)) (congrArg x2 (eq_ix2 _))) (congrArg x3 (eq_ix1 _))

/-- phi or d at a flattened position, likewise. -/
theorem conv64_at (b : Fin 8) (m : Fin 4096) (c : Fin 256) :
    val_main_v4 (F := Ideal) x0 x2 x3 (ix3 b m c) = conv (detS x0 b m) (m2 x2) (v1 x3) c := by
  unfold val_main_v4
  rw [shapeCast_apply _ _ _ _ (lin64 b m c), val_main_v3_apply, val_main_v0_apply, val_main_v2_apply, val_main_v1_apply]
  exact congrArg₂ (· + ·) (Finset.sum_congr rfl fun k _ =>
    congrArg₂ (· * ·) (congrArg x0 (eq_ix4 _)) (congrArg x2 (eq_ix2 _))) (congrArg x3 (eq_ix1 _))

/-- The affinity of aim position n and detect position m: the inner product of their 256 features. -/
theorem aff_at (b : Fin 8) (n : Fin 1024) (m : Fin 4096) :
    val_main_v20 (F := Ideal) x0 x1 x4 x5 x6 x7 (ix3 b n m)
      = ∑ k : Fin 256, conv (aimS x1 b n) (m2 x4) (v1 x5) k * conv (detS x0 b m) (m2 x6) (v1 x7) k := by
  rw [val_main_v20_apply]
  exact Finset.sum_congr rfl fun k _ => congrArg₂ (· * ·) (conv32_at x1 x4 x5 b n k) (conv64_at x0 x6 x7 b m k)

/-- The non_aim branch before its head: row n of the affinity over 4096, against the detect features d. -/
theorem pre1_at (b : Fin 8) (n : Fin 1024) (c : Fin 256) :
    val_main_v26 (F := Ideal) x0 x1 x2 x3 x4 x5 x6 x7 (ix3 b n c)
      = rpre1 (conv (aimS x1 b n) (m2 x4) (v1 x5)) (fun m => conv (detS x0 b m) (m2 x6) (v1 x7))
          (fun m => conv (detS x0 b m) (m2 x2) (v1 x3)) c := by
  rw [val_main_v26_apply]
  unfold rpre1
  exact Finset.sum_congr rfl fun m _ => congrArg₂ (· * ·)
    (congrArg (Ideal.div · d4096) (aff_at x0 x1 x4 x5 x6 x7 b n m)) (conv64_at x0 x2 x3 b m c)

/-- The non_det branch before its head: row m of the transposed affinity over 1024, against the aim features a. -/
theorem pre2_at (b : Fin 8) (m : Fin 4096) (c : Fin 256) :
    val_main_v48 (F := Ideal) x0 x1 x2 x3 x4 x5 x6 x7 (ix3 b m c)
      = rpre2 (conv (detS x0 b m) (m2 x6) (v1 x7)) (fun n => conv (aimS x1 b n) (m2 x4) (v1 x5))
          (fun n => conv (aimS x1 b n) (m2 x2) (v1 x3)) c := by
  rw [val_main_v48_apply]
  unfold rpre2
  refine Finset.sum_congr rfl fun n _ => congrArg₂ (· * ·) ?_ (conv32_at x1 x2 x3 b n c)
  rw [val_main_v25_apply, val_main_v23_apply]
  exact congrArg (Ideal.div · d1024) (aff_at x0 x1 x4 x5 x6 x7 b n m)

/-- The head's 1x1 convolution 256 -> 512 of the non_aim branch at position n, before its bias. -/
theorem dot1_at (b : Fin 8) (n : Fin 1024) (d : Fin 512) :
    val_main_v28 (F := Ideal) x0 x1 x2 x3 x4 x5 x6 x7 x8 (ix4 b (pos32 n).1 (pos32 n).2 d)
      = ∑ c : Fin 256, rpre1 (conv (aimS x1 b n) (m2 x4) (v1 x5)) (fun m => conv (detS x0 b m) (m2 x6) (v1 x7))
            (fun m => conv (detS x0 b m) (m2 x2) (v1 x3)) c * m2 x8 c d := by
  rw [val_main_v28_apply]
  exact Finset.sum_congr rfl fun c _ => congrArg₂ (· * ·)
    ((shapeCast_apply _ _ _ _ (lin32 b n c).symm).trans (pre1_at x0 x1 x2 x3 x4 x5 x6 x7 b n c)) (congrArg x8 (eq_ix2 _))

/-- The same for the non_det branch at position m. -/
theorem dot2_at (b : Fin 8) (m : Fin 4096) (d : Fin 512) :
    val_main_v50 (F := Ideal) x0 x1 x2 x3 x4 x5 x6 x7 x14 (ix4 b (pos64 m).1 (pos64 m).2 d)
      = ∑ c : Fin 256, rpre2 (conv (detS x0 b m) (m2 x6) (v1 x7)) (fun n => conv (aimS x1 b n) (m2 x4) (v1 x5))
            (fun n => conv (aimS x1 b n) (m2 x2) (v1 x3)) c * m2 x14 c d := by
  rw [val_main_v50_apply]
  exact Finset.sum_congr rfl fun c _ => congrArg₂ (· * ·)
    ((shapeCast_apply _ _ _ _ (lin64 b m c).symm).trans (pre2_at x0 x1 x2 x3 x4 x5 x6 x7 b m c)) (congrArg x14 (eq_ix2 _))

/-- The reference's non_aim: the head's convolution, bias, batch normalisation and residual, every per-channel vector read at d. -/
theorem ref1 (b : Fin 8) (n : Fin 1024) (d : Fin 512) :
    val_main_v47 (F := Ideal) x0 x1 x2 x3 x4 x5 x6 x7 x8 x9 x10 x11 x12 x13 (ix4 b (pos32 n).1 (pos32 n).2 d)
      = ROut1 (aimS x1 b) (detS x0 b) (m2 x2) (m2 x4) (m2 x6) (v1 x3) (v1 x5) (v1 x7) (m2 x8) (v1 x9) (v1 x10) (v1 x11) (v1 x12) (v1 x13) n d := by
  rw [val_main_v47_apply, val_main_v46_apply, val_main_v43_apply, val_main_v37_apply,
    val_main_v34_apply, val_main_v31_apply, dot1_at, val_main_v30_apply, val_main_v29_apply,
    val_main_v33_apply, val_main_v32_apply, val_main_v36_apply, val_main_v35_apply,
    val_main_v42_apply, val_main_v41_apply, val_main_v45_apply, val_main_v44_apply,
    eq_ix1 (idx_main_v29 _), eq_ix1 (idx_main_v32 _), eq_ix1 (idx_main_v35 _), eq_ix1 (idx_main_v41 _),
    eq_ix1 (idx_main_v44 _)]
  rfl

/-- The reference's non_det, likewise. -/
theorem ref2 (b : Fin 8) (n : Fin 4096) (d : Fin 512) :
    val_main_v69 (F := Ideal) x0 x1 x2 x3 x4 x5 x6 x7 x14 x15 x16 x17 x18 x19 (ix4 b (pos64 n).1 (pos64 n).2 d)
      = ROut2 (aimS x1 b) (detS x0 b) (m2 x2) (m2 x4) (m2 x6) (v1 x3) (v1 x5) (v1 x7) (m2 x14) (v1 x15) (v1 x16) (v1 x17) (v1 x18) (v1 x19) n d := by
  rw [val_main_v69_apply, val_main_v68_apply, val_main_v65_apply, val_main_v59_apply,
    val_main_v56_apply, val_main_v53_apply, dot2_at, val_main_v52_apply, val_main_v51_apply,
    val_main_v55_apply, val_main_v54_apply, val_main_v58_apply, val_main_v57_apply,
    val_main_v64_apply, val_main_v63_apply, val_main_v67_apply, val_main_v66_apply,
    eq_ix1 (idx_main_v51 _), eq_ix1 (idx_main_v54 _), eq_ix1 (idx_main_v57 _), eq_ix1 (idx_main_v63 _),
    eq_ix1 (idx_main_v66 _)]
  rfl

end Cert.ReferenceIdeal.RefValue

end
-- ==== Proof.Pre.lean ====
import proofs.«154970_j43301860278975_1_alg».proof.Defs
import proofs.«154970_j43301860278975_1_alg».proof.Proof.Gen.Pre_finite_inputs
import proofs.«154970_j43301860278975_1_alg».proof.Proof.KI.Args
import Idealize.ShloMosaic.Lib.ReduceAll

noncomputable section

namespace Cert.KernelIdeal.Reg

open Cert.KernelIdeal Cert.KernelIdeal.Gen
open Idealize.ShloMosaic Idealize.ShloMosaic.TcCoe Idealize.ShloMosaic.ValueIdx
open Cert.Spec
open scoped BigOperators

theorem pre_real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem pre_real_of_all_finite {s : Shape} {axes : List (Fin s.rank)} (x : s.Idx → EReal)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
        (cmpf (F := Ideal) (φ := .f32) .olt (Host.absf (F := Ideal) (φ := .f32) x)
          (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) := by
  haveI : Subsingleton (⟨0, ![]⟩ : Shape).Idx := ⟨fun a b => funext fun d => d.elim0⟩
  exact pre_real_of_abs_lt_top (x i) (Host.reduce_andi_all _ _ hr hu ix0 e i)

theorem pre_andi_scalar_apply (p q : IVec (⟨0, ![]⟩ : Shape) 1) : andi p q ix0 = IntOp.andi (p ix0) (q ix0) := rfl

variable [Cert.Pre_finite_inputs.Facts] (m : (ℓ : Loc nD τ sig) → Buf (Elt Ideal) ℓ) (hpre : Cert.Pre_KernelIdeal m) (c : Dev nD)
include hpre

theorem pre_fin_first_eight :
    (∀ i, ∃ r : ℝ, a0 m c i = (r : EReal)) ∧ (∀ i, ∃ r : ℝ, a1 m c i = (r : EReal)) ∧ (∀ i, ∃ r : ℝ, a2 m c i = (r : EReal))
      ∧ (∀ i, ∃ r : ℝ, a3 m c i = (r : EReal)) ∧ (∀ i, ∃ r : ℝ, a4 m c i = (r : EReal)) ∧ (∀ i, ∃ r : ℝ, a5 m c i = (r : EReal))
      ∧ (∀ i, ∃ r : ℝ, a6 m c i = (r : EReal)) ∧ (∀ i, ∃ r : ℝ, a7 m c i = (r : EReal)) := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  simp only [pre_andi_scalar_apply, IntOp.andi_eq_one] at h
  obtain ⟨⟨⟨⟨⟨⟨⟨⟨⟨⟨⟨⟨⟨⟨⟨⟨⟨⟨⟨h0, h1⟩, h2⟩, h3⟩, h4⟩, h5⟩, h6⟩, h7⟩, _⟩, _⟩, _⟩, _⟩, _⟩, _⟩, _⟩, _⟩, _⟩, _⟩, _⟩, _⟩ := h
  exact ⟨pre_real_of_all_finite _ _ _ _ h0, pre_real_of_all_finite _ _ _ _ h1, pre_real_of_all_finite _ _ _ _ h2,
    pre_real_of_all_finite _ _ _ _ h3, pre_real_of_all_finite _ _ _ _ h4, pre_real_of_all_finite _ _ _ _ h5,
    pre_real_of_all_finite _ _ _ _ h6, pre_real_of_all_finite _ _ _ _ h7⟩

theorem fin_arg0 (i : S8x64x64x512.Idx) : ∃ r : ℝ, a0 m c i = (r : EReal) := (pre_fin_first_eight m hpre c).1 i
theorem fin_arg1 (i : S8x32x32x512.Idx) : ∃ r : ℝ, a1 m c i = (r : EReal) := (pre_fin_first_eight m hpre c).2.1 i
theorem fin_arg2 (i : S512x256.Idx) : ∃ r : ℝ, a2 m c i = (r : EReal) := (pre_fin_first_eight m hpre c).2.2.1 i
theorem fin_arg3 (i : S256.Idx) : ∃ r : ℝ, a3 m c i = (r : EReal) := (pre_fin_first_eight m hpre c).2.2.2.1 i
theorem fin_arg4 (i : S512x256.Idx) : ∃ r : ℝ, a4 m c i = (r : EReal) := (pre_fin_first_eight m hpre c).2.2.2.2.1 i
theorem fin_arg5 (i : S256.Idx) : ∃ r : ℝ, a5 m c i = (r : EReal) := (pre_fin_first_eight m hpre c).2.2.2.2.2.1 i
theorem fin_arg6 (i : S512x256.Idx) : ∃ r : ℝ, a6 m c i = (r : EReal) := (pre_fin_first_eight m hpre c).2.2.2.2.2.2.1 i
theorem fin_arg7 (i : S256.Idx) : ∃ r : ℝ, a7 m c i = (r : EReal) := (pre_fin_first_eight m hpre c).2.2.2.2.2.2.2 i

end Cert.KernelIdeal.Reg

end
-- ==== Proof.SpecLaw.lean ====
import proofs.«154970_j43301860278975_1_alg».proof.Proof.Spec

noncomputable section

namespace Cert.Spec

open Idealize.ShloMosaic
open scoped BigOperators

/-- The reals embed additively in the extended reals, so the embedding commutes with finite sums. -/
theorem coe_finsum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- Both sides are the double sum of t k * p m k * x m / y, in the two orders; g is t k * p m k with its factors in either order. -/
theorem exch {K M : Type} [Fintype K] [Fintype M] {t : K → EReal} {p g : M → K → EReal} {x : M → EReal}
    (ht : Fin1 t) (hp : Fin2 p) (hx : Fin1 x) {y : ℝ} (hy : y ≠ 0) (hg : ∀ m k, g m k = t k * p m k) :
    ∑ k, t k * ((∑ m, p m k * x m) * ((1 / y : ℝ) : EReal)) = ∑ m, Ideal.div (∑ k, g m k) (y : EReal) * x m := by
  choose tr htr using ht
  choose pr hpr using hp
  choose xr hxr using hx
  simp only [hg, htr, hpr, hxr, Ideal.div_coe hy, ← EReal.coe_mul, ← coe_finsum]
  refine congrArg _ ?_
  simp only [Finset.sum_mul, Finset.mul_sum]
  rw [Finset.sum_comm]
  exact Finset.sum_congr rfl fun m _ => Finset.sum_congr rfl fun k _ => by ring

theorem c4096_eq : c4096 = ((1 / 4096 : ℝ) : EReal) := by
  simp [Ideal.ofBits, Ideal.ieee, -EReal.coe_mul]; norm_num

theorem c1024_eq : c1024 = ((1 / 1024 : ℝ) : EReal) := by
  simp [Ideal.ofBits, Ideal.ieee, -EReal.coe_mul]; norm_num

theorem d4096_eq : d4096 = ((4096 : ℝ) : EReal) := by
  simp [Ideal.ofBits, Ideal.ieee, -EReal.coe_mul]; norm_num

theorem d1024_eq : d1024 = ((1024 : ℝ) : EReal) := by
  simp [Ideal.ofBits, Ideal.ieee, -EReal.coe_mul]; norm_num

/-- A convolution of finite data is finite. -/
theorem conv_real {x : Fin 512 → EReal} {W : Fin 512 → Fin 256 → EReal} {b : Fin 256 → EReal}
    (hx : Fin1 x) (hW : Fin2 W) (hb : Fin1 b) : Fin1 (conv x W b) := by
  choose xr hxr using hx
  choose Wr hWr using hW
  choose br hbr using hb
  exact fun j => ⟨(∑ k, xr k * Wr k j) + br j, by
    simp only [conv, hxr, hWr, hbr, EReal.coe_add, coe_finsum, EReal.coe_mul]⟩

section
variable (aim : Fin 1024 → Fin 512 → EReal) (det : Fin 4096 → Fin 512 → EReal)
  (Wg Wt Wp : Fin 512 → Fin 256 → EReal) (bg bt bp : Fin 256 → EReal)
  (Wh : Fin 256 → Fin 512 → EReal) (bh gh beth mh vh : Fin 512 → EReal)

theorem KOut1_eq_ROut1 (haim : Fin2 aim) (hdet : Fin2 det) (hWg : Fin2 Wg) (hWt : Fin2 Wt) (hWp : Fin2 Wp)
    (hbg : Fin1 bg) (hbt : Fin1 bt) (hbp : Fin1 bp) (n : Fin 1024) (d : Fin 512) :
    KOut1 aim det Wg Wt Wp bg bt bp Wh bh gh beth mh vh n d = ROut1 aim det Wg Wt Wp bg bt bp Wh bh gh beth mh vh n d := by
  unfold KOut1 ROut1
  congr 1
  funext c
  unfold kpre rpre1 mmat
  rw [c4096_eq, d4096_eq]
  exact exch (conv_real (haim n) hWt hbt) (fun m => conv_real (hdet m) hWp hbp)
    (fun m => conv_real (hdet m) hWg hbg c) (by norm_num) fun _ _ => rfl

theorem KOut2_eq_ROut2 (haim : Fin2 aim) (hdet : Fin2 det) (hWg : Fin2 Wg) (hWt : Fin2 Wt) (hWp : Fin2 Wp)
    (hbg : Fin1 bg) (hbt : Fin1 bt) (hbp : Fin1 bp) (m : Fin 4096) (d : Fin 512) :
    KOut2 aim det Wg Wt Wp bg bt bp Wh bh gh beth mh vh m d = ROut2 aim det Wg Wt Wp bg bt bp Wh bh gh beth mh vh m d := by
  unfold KOut2 ROut2
  congr 1
  funext c
  unfold kpre rpre2 nmat
  rw [c1024_eq, d1024_eq]
  exact exch (conv_real (hdet m) hWp hbp) (fun n => conv_real (haim n) hWt hbt)
    (fun n => conv_real (haim n) hWg hbg c) (by norm_num) fun _ _ => mul_comm _ _
end

end Cert.Spec

end
-- ==== Proof.lean ====
import proofs.«154970_j43301860278975_1_alg».proof.Defs
import proofs.«154970_j43301860278975_1_alg».proof.Proof.Gen.Kernel
import proofs.«154970_j43301860278975_1_alg».proof.Proof.Gen.KernelIdeal
import proofs.«154970_j43301860278975_1_alg».proof.Proof.Gen.ReferenceIdeal
import proofs.«154970_j43301860278975_1_alg».proof.Proof.Gen.Pre_finite_inputs
import proofs.«154970_j43301860278975_1_alg».proof.Proof.Gen.ReferenceIdeal.Run
import proofs.«154970_j43301860278975_1_alg».proof.Proof.Gen.ReferenceIdeal.Read
import proofs.«154970_j43301860278975_1_alg».proof.Proof.K.Run
import proofs.«154970_j43301860278975_1_alg».proof.Proof.KI.Run
import proofs.«154970_j43301860278975_1_alg».proof.Proof.KI.Chain
import proofs.«154970_j43301860278975_1_alg».proof.Proof.Ref
import proofs.«154970_j43301860278975_1_alg».proof.Proof.Pre
import proofs.«154970_j43301860278975_1_alg».proof.Proof.SpecLaw
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.Spec

open Cert.Kernel Cert.Kernel.Reg in
theorem frame_k : Cert.frame_Kernel := fun m ρ _ =>
  (θ_run Cert.Kernel.defs _ _).mono (fun r h c => by
    refine ⟨?_, ?_, ?_, ?_, ?_, ?_, ?_, ?_, ?_, ?_, ?_, ?_, ?_, ?_, ?_, ?_, ?_, ?_, ?_, ?_⟩ <;> exact (h c _ (mem_uc _ (by decide))).trans (W6_keep m c _ (by decide))) (run (F := Bits) m ρ)

open Cert.KernelIdeal Cert.KernelIdeal.Reg in
theorem frame_ki : Cert.frame_KernelIdeal := fun m ρ _ =>
  (θ_run Cert.KernelIdeal.defs _ _).mono (fun r h c => by
    refine ⟨?_, ?_, ?_, ?_, ?_, ?_, ?_, ?_, ?_, ?_, ?_, ?_, ?_, ?_, ?_, ?_, ?_, ?_, ?_, ?_⟩ <;> exact (h c _ (mem_uc _ (by decide))).trans (W6_keep m c _ (by decide))) (run (F := Ideal) m ρ)

theorem frame_ri : Cert.frame_ReferenceIdeal := fun m ρ _ =>
  (θ_run Cert.ReferenceIdeal.defs _ _).mono (fun _ h c => (h c).2.2) (Cert.ReferenceIdeal.Value.run (F := Ideal) m ρ)

open Cert.KernelIdeal Cert.KernelIdeal.Reg in
theorem algebraic : Cert.algebraic_KernelIdeal_ReferenceIdeal := by
  intro m ρ m' ρ' hpre hagree
  refine ⟨fun c => W6 (F := Ideal) m c (Proc.devRef .tc main_v19), fun c => W6 (F := Ideal) m c (Proc.devRef .tc main_v20), ?_, ?_⟩
  · refine (θ_run Cert.KernelIdeal.defs _ _).mono ?_ (run (F := Ideal) m ρ)
    intro r h c
    refine ⟨h c _ (mem_uc main_v19 (by decide)), h c _ (mem_uc main_v20 (by decide)), ?_, ?_, ?_, ?_, ?_, ?_, ?_, ?_, ?_, ?_, ?_, ?_, ?_, ?_, ?_, ?_, ?_, ?_, ?_, ?_⟩ <;>
      exact (h c _ (mem_uc _ (by decide))).trans (W6_keep m c _ (by decide))
  · refine (θ_run Cert.ReferenceIdeal.defs _ _).mono ?_ (Cert.ReferenceIdeal.Value.run (F := Ideal) m' ρ')
    intro r h c
    obtain ⟨e0, e1, e2, e3, e4, e5, e6, e7, e8, e9, e10, e11, e12, e13, e14, e15, e16, e17, e18, e19⟩ := hagree c
    refine ⟨?_, ?_, (h c).2.2⟩
    · rw [(h c).1, Cert.ReferenceIdeal.Read.val_main_v47_eq, e0, e1, e2, e3, e4, e5, e6, e7, e8, e9, e10, e11, e12, e13]
      funext i
      obtain ⟨b, h', w, d, rfl⟩ : ∃ (b : Fin 8) (h' w : Fin 32) (d : Fin 512), i = ix4 b h' w d := ⟨i 0, i 1, i 2, i 3, eq_ix4 i⟩
      have hp : ix4 b h' w d = ix4 b (pos32 (npos32 h' w)).1 (pos32 (npos32 h' w)).2 d := by rw [pos32_npos32]
      rw [hp]
      refine (Cert.ReferenceIdeal.RefValue.ref1 _ _ _ _ _ _ _ _ _ _ _ _ _ _ b (npos32 h' w) d).trans ?_
      refine Eq.trans ?_ (out1 m c b (npos32 h' w) d).symm
      exact (KOut1_eq_ROut1 _ _ _ _ _ _ _ _ _ _ _ _ _ _
        (fun n k => fin_arg1 m hpre c _) (fun n k => fin_arg0 m hpre c _) (fun i j => fin_arg2 m hpre c _)
        (fun i j => fin_arg4 m hpre c _) (fun i j => fin_arg6 m hpre c _) (fun j => fin_arg3 m hpre c _)
        (fun j => fin_arg5 m hpre c _) (fun j => fin_arg7 m hpre c _) (npos32 h' w) d).symm
    · rw [(h c).2.1, Cert.ReferenceIdeal.Read.val_main_v69_eq, e0, e1, e2, e3, e4, e5, e6, e7, e14, e15, e16, e17, e18, e19]
      funext i
      obtain ⟨b, h', w, d, rfl⟩ : ∃ (b : Fin 8) (h' w : Fin 64) (d : Fin 512), i = ix4 b h' w d := ⟨i 0, i 1, i 2, i 3, eq_ix4 i⟩
      have hp : ix4 b h' w d = ix4 b (pos64 (npos64 h' w)).1 (pos64 (npos64 h' w)).2 d := by rw [pos64_npos64]
      rw [hp]
      refine (Cert.ReferenceIdeal.RefValue.ref2 _ _ _ _ _ _ _ _ _ _ _ _ _ _ b (npos64 h' w) d).trans ?_
      refine Eq.trans ?_ (out2 m c b (npos64 h' w) d).symm
      exact (KOut2_eq_ROut2 _ _ _ _ _ _ _ _ _ _ _ _ _ _
        (fun n k => fin_arg1 m hpre c _) (fun n k => fin_arg0 m hpre c _) (fun i j => fin_arg2 m hpre c _)
        (fun i j => fin_arg4 m hpre c _) (fun i j => fin_arg6 m hpre c _) (fun j => fin_arg3 m hpre c _)
        (fun j => fin_arg5 m hpre c _) (fun j => fin_arg7 m hpre c _) (npos64 h' w) d).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
